-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S64 .f32) (main_arg7 : FVec F S64x10 .f32) (main_arg8 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x10 .f32 := Host.absf main_arg7
  let main_cst_8 : FVec F S_ .f32 := constant S_ .f32 0x7F800000#32
  let main_v25 : FVec F S64x10 .f32 := broadcastInDim S64x10 ![] bcast_S_S64x10 main_cst_8
  let main_v26 : IVec S64x10 1 := cmpf .olt main_v24 main_v25
  let main_c_9 : IVec S_ 1 := constantI S_ 1 1#1
  let main_v27 : IVec S_ 1 := (fun x v => Host.reduce IntOp.andi x v reducesTo_S64x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S64x10 .f32) (main_arg8 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S100000x1 : Shape := ⟨2, ![100000, 1]⟩
abbrev S_ : Shape := ⟨0, ![]⟩
abbrev S1600000x1 : Shape := ⟨2, ![1600000, 1]⟩
abbrev S1x64 : Shape := ⟨2, ![1, 64]⟩
abbrev S1x10 : Shape := ⟨2, ![1, 10]⟩
abbrev S100000x64 : Shape := ⟨2, ![100000, 64]⟩
abbrev S10000x128 : Shape := ⟨2, ![10000, 128]⟩
abbrev S10000x64 : Shape := ⟨2, ![10000, 64]⟩
abbrev S1600000x64 : Shape := ⟨2, ![1600000, 64]⟩
abbrev S5000x64 : Shape := ⟨2, ![5000, 64]⟩
abbrev S5000x1 : Shape := ⟨2, ![5000, 1]⟩
abbrev S64x1 : Shape := ⟨2, ![64, 1]⟩

abbrev nBuf : Space → Nat
  | .hbm => 84
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x10, .f32⟩
  | .hbm, ⟨8, _⟩ => ⟨S10, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000x1, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000, .f32⟩
  | .hbm, ⟨44, _⟩ => ⟨S1600000, .f32⟩
  | .hbm, ⟨45, _⟩ => ⟨S1600000x1, .f32⟩
  | .hbm, ⟨46, _⟩ => ⟨S1x64, .f32⟩
  | .hbm, ⟨47, _⟩ => ⟨S1x64, .f32⟩
  | .hbm, ⟨48, _⟩ => ⟨S1x10, .f32⟩
  | .hbm, ⟨49, _⟩ => ⟨S100000x64, .bf16⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .bf16⟩
  | .hbm, ⟨59, _⟩ => ⟨S1600000x64, .f32⟩
  | .hbm, ⟨60, _⟩ => ⟨S1600000x64, .f32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S100000x64, .f32⟩
  | .hbm, ⟨66, _⟩ => ⟨S100000x64, .bf16⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x64, .bf16⟩
  | .hbm, ⟨76, _⟩ => ⟨S1600000x64, .f32⟩
  | .hbm, ⟨77, _⟩ => ⟨S1600000x64, .f32⟩
  | .hbm, ⟨78, _⟩ => ⟨S1600000x64, .f32⟩
  | .hbm, ⟨79, _⟩ => ⟨S_, .f32⟩
  | .hbm, ⟨80, _⟩ => ⟨S100000x64, .f32⟩
  | .hbm, ⟨81, _⟩ => ⟨S1600000x1, .i32⟩
  | .hbm, ⟨82, _⟩ => ⟨S100000x64, .f32⟩
  | .hbm, ⟨83, _⟩ => ⟨S64x10, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .bf16⟩
  | .local _ .vmem, ⟨4, _⟩ => ⟨S10000x64, .bf16⟩
  | .local _ .vmem, ⟨5, _⟩ => ⟨S5000x64, .f32⟩
  | .local _ .vmem, ⟨6, _⟩ => ⟨S5000x64, .f32⟩
  | .local _ .vmem, ⟨7, _⟩ => ⟨S5000x64, .bf16⟩
  | .local _ .vmem, ⟨8, _⟩ => ⟨S5000x64, .bf16⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x64, .f32⟩
  | .local _ .vmem, ⟨13, _⟩ => ⟨S5000x64, .bf16⟩
  | .local _ .vmem, ⟨14, _⟩ => ⟨S5000x64, .bf16⟩
  | .local _ .vmem, ⟨15, _⟩ => ⟨S5000x64, .f32⟩
  | .local _ .vmem, ⟨16, _⟩ => ⟨S5000x64, .f32⟩
  | .local _ .vmem, ⟨17, _⟩ => ⟨S5000x64, .bf16⟩
  | .local _ .vmem, ⟨18, _⟩ => ⟨S5000x64, .bf16⟩
  | .local _ .vmem, ⟨19, _⟩ => ⟨S5000x1, .f32⟩
  | .local _ .vmem, ⟨20, _⟩ => ⟨S5000x1, .f32⟩
  | .local _ .vmem, ⟨21, _⟩ => ⟨S1x64, .f32⟩
  | .local _ .vmem, ⟨22, _⟩ => ⟨S5000x1, .i32⟩
  | .local _ .vmem, ⟨23, _⟩ => ⟨S5000x1, .i32⟩
  | .local _ .vmem, ⟨24, _⟩ => ⟨S64x10, .f32⟩
  | .local _ .vmem, ⟨25, _⟩ => ⟨S1x10, .f32⟩
  | .local _ .vmem, ⟨26, _⟩ => ⟨S64x10, .f32⟩
  | .local _ .vmem, ⟨27, _⟩ => ⟨S64x64, .f32⟩
  | .local _ .vmem, ⟨28, _⟩ => ⟨S1x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_5 : Ref sig .tc := ⟨.hbm, 50, rfl⟩
abbrev main_v34 : Ref sig .tc := ⟨.hbm, 51, rfl⟩
abbrev main_v35 : Ref sig .tc := ⟨.hbm, 52, rfl⟩
abbrev main_c_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_8 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_scratch0 : Ref sig .tc := ⟨.vmem, 27, rfl⟩
abbrev cc2_scratch1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem6_0 : DmaSem sig := 25
abbrev cc2_sem7_0 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v43 : BitVec 1 := Scalar.cmpi .eq arg0 c19_i32
  let v44 : BitVec 32 := Scalar.extui v43
  let c0_i32_20 : BitVec 32 := 0#32
  let v45 : BitVec 1 := Scalar.cmpi .ne v44 c0_i32_20
  v45

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x1 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S64x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x10 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x10 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S100000_S100000x1 : S100000.ShapeCasts S100000x1
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S1600000_S1600000x1 : S1600000.ShapeCasts S1600000x1
  shapeCasts_S64_S1x64 : S64.ShapeCasts S1x64
  shapeCasts_S10_S1x10 : S10.ShapeCasts S1x10
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  packedbf16_S5000x64_S5000x64_0_0 : (Rect.unit (s := S5000x64) ![0, 0] S5000x64.size inb_S5000x64_S5000x64_0_0).PackedRows (EltTy.packing .bf16)
  shapeCasts_S64x64_S64x64 : S64x64.ShapeCasts S64x64
  iota_S5000x64_d1_w32 : S5000x64.Iotas .tc 32 [1]
  natLt_1_32 : 1 < 32
  reduces_S5000x64_S64 : S5000x64.Reduces [0] S64
  transposes_S1x64_p1_0_S64x1 : S1x64.Transposes [1, 0] S64x1
  broadcasts_S64x1_S64x64 : S64x1.Broadcasts S64x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  reduces_S64x10_S64 : S64x10.Reduces [1] S64
  shapeCasts_S64_S64x1 : S64.ShapeCasts S64x1
  broadcasts_S64x1_S64x10 : S64x1.Broadcasts S64x10
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S5000x64_S64x64_0_0_1_1_n_n_wf : DotDims.WF S5000x64 S5000x64 S64x64 [0] [0] [1] [1] [] []
  dot_S64x64_S64x10_S64x10_1_0_0_1_n_n_wf : DotDims.WF S64x64 S64x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .bf16 = 32 ∨ (Rect.block (s := S100000x64) S10000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .bf16 = 32 ∨ (Rect.block (s := S100000x64) S5000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .bf16 = 32 ∨ (Rect.block (s := S100000x64) S5000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .bf16 = 32 ∨ (Rect.block (s := S100000x64) S5000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S100000x1.size a
  hwx2_4 : ∀ i : grid2.Coords, EltTy.bits .i32 = 32 ∨ (Rect.block (s := S100000x1) S5000x1.size (cc2_transform_4 i) (hinb2_4 i)).WholeWords (EltTy.packing .i32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x10.size a ≤ S64x10.size a
  hwx2_5 : ∀ i : grid2.Coords, EltTy.bits .f32 = 32 ∨ (Rect.block (s := S64x10) S64x10.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x10.size a ≤ S1x10.size a
  hwx2_6 : ∀ i : grid2.Coords, EltTy.bits .f32 = 32 ∨ (Rect.block (s := S1x10) S1x10.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x10.size a ≤ S64x10.size a
  hwx2_7 : ∀ i : grid2.Coords, EltTy.bits .f32 = 32 ∨ (Rect.block (s := S64x10) S64x10.size (cc2_transform_7 i) (hinb2_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S5000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S64x10.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v32) S1x10.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v61) S64x10.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S64x1 : Shape := ⟨2, ![64, 1]⟩
abbrev S1x10 : Shape := ⟨2, ![1, 10]⟩

abbrev nBuf : Space → Nat
  | .hbm => 162
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x10, .f32⟩
  | 8 => ⟨S10, .f32⟩
  | 9 => ⟨S1x1600000, .i32⟩
  | 10 => ⟨S1600000, .i32⟩
  | 11 => ⟨S1x1600000, .i32⟩
  | 12 => ⟨S1600000, .i32⟩
  | 13 => ⟨S100000x64, .f32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x64, .f32⟩
  | 52 => ⟨S1600000x1, .f32⟩
  | 53 => ⟨S1600000x64, .f32⟩
  | 54 => ⟨S1600000x64, .f32⟩
  | 55 => ⟨S_, .f32⟩
  | 56 => ⟨S100000x64, .f32⟩
  | 57 => ⟨S1600000x1, .i32⟩
  | 58 => ⟨S100000x64, .f32⟩
  | 59 => ⟨S100000, .f32⟩
  | 60 => ⟨S100000x1, .f32⟩
  | 61 => ⟨S100000x64, .f32⟩
  | 62 => ⟨S100000x64, .f32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x64, .f32⟩
  | 71 => ⟨S_, .f32⟩
  | 72 => ⟨S1600000, .f32⟩
  | 73 => ⟨S_, .f32⟩
  | 74 => ⟨S100000, .f32⟩
  | 75 => ⟨S1600000x1, .i32⟩
  | 76 => ⟨S100000, .f32⟩
  | 77 => ⟨S_, .f32⟩
  | 78 => ⟨S100000, .f32⟩
  | 79 => ⟨S100000, .f32⟩
  | 80 => ⟨S100000, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000, .f32⟩
  | 99 => ⟨S1600000, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x64, .f32⟩
  | 109 => ⟨S1600000x1, .f32⟩
  | 110 => ⟨S1600000x64, .f32⟩
  | 111 => ⟨S1600000x64, .f32⟩
  | 112 => ⟨S_, .f32⟩
  | 113 => ⟨S100000x64, .f32⟩
  | 114 => ⟨S1600000x1, .i32⟩
  | 115 => ⟨S100000x64, .f32⟩
  | 116 => ⟨S100000, .f32⟩
  | 117 => ⟨S100000x1, .f32⟩
  | 118 => ⟨S100000x64, .f32⟩
  | 119 => ⟨S100000x64, .f32⟩
  | 120 => ⟨S100000x64, .f32⟩
  | 121 => ⟨S1x64, .f32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S_, .f32⟩
  | _ => ⟨S100000x128, .f32⟩

abbrev hbmTy0_1 (i : Nat) : BufTy := match i % 128 with
  | 0 => ⟨S64x64, .f32⟩
  | 1 => ⟨S100000x1, .i32⟩
  | 2 => ⟨S64x64, .f32⟩
  | 3 => ⟨S_, .f32⟩
  | 4 => ⟨S100000, .f32⟩
  | 5 => ⟨S_, .f32⟩
  | 6 => ⟨S64, .f32⟩
  | 7 => ⟨S100000x1, .i32⟩
  | 8 => ⟨S64, .f32⟩
  | 9 => ⟨S_, .f32⟩
  | 10 => ⟨S64, .f32⟩
  | 11 => ⟨S64, .f32⟩
  | 12 => ⟨S64x1, .f32⟩
  | 13 => ⟨S64x64, .f32⟩
  | 14 => ⟨S64x64, .f32⟩
  | 15 => ⟨S64x10, .f32⟩
  | 16 => ⟨S1x10, .f32⟩
  | 17 => ⟨S64x10, .f32⟩
  | 18 => ⟨S64x10, .f32⟩
  | 19 => ⟨S_, .f32⟩
  | 20 => ⟨S64, .f32⟩
  | 21 => ⟨S_, .f32⟩
  | 22 => ⟨S64, .f32⟩
  | 23 => ⟨S64, .f32⟩
  | 24 => ⟨S64x1, .f32⟩
  | 25 => ⟨S64x10, .f32⟩
  | 26 => ⟨S64x10, .f32⟩
  | 27 => ⟨S64x10, .f32⟩
  | 28 => ⟨S_, .f32⟩
  | 29 => ⟨S64, .f32⟩
  | 30 => ⟨S64x1, .f32⟩
  | 31 => ⟨S64x1, .f32⟩
  | 32 => ⟨S64x10, .f32⟩
  | 33 => ⟨S64x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_c_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_call1_cst : Ref sig .tc := ⟨.hbm, 124, rfl⟩
abbrev main_call1_v0 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_19 : Ref sig .tc := ⟨.hbm, 131, rfl⟩
abbrev main_v97 : Ref sig .tc := ⟨.hbm, 132, rfl⟩
abbrev main_cst_20 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_21 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_call2_cst : Ref sig .tc := ⟨.hbm, 147, rfl⟩
abbrev main_call2_v0 : Ref sig .tc := ⟨.hbm, 148, rfl⟩
abbrev main_call2_cst_0 : Ref sig .tc := ⟨.hbm, 149, rfl⟩
abbrev main_call2_v1 : Ref sig .tc := ⟨.hbm, 150, rfl⟩
abbrev main_call2_v2 : Ref sig .tc := ⟨.hbm, 151, rfl⟩
abbrev main_call2_v3 : Ref sig .tc := ⟨.hbm, 152, rfl⟩
abbrev main_call2_v4 : Ref sig .tc := ⟨.hbm, 153, rfl⟩
abbrev main_call2_v5 : Ref sig .tc := ⟨.hbm, 154, rfl⟩
abbrev main_call2_v6 : Ref sig .tc := ⟨.hbm, 155, rfl⟩
abbrev main_call2_cst_1 : Ref sig .tc := ⟨.hbm, 156, rfl⟩
abbrev main_call2_v7 : Ref sig .tc := ⟨.hbm, 157, rfl⟩
abbrev main_call2_v8 : Ref sig .tc := ⟨.hbm, 158, rfl⟩
abbrev main_call2_v9 : Ref sig .tc := ⟨.hbm, 159, rfl⟩
abbrev main_call2_v10 : Ref sig .tc := ⟨.hbm, 160, rfl⟩
abbrev main_v110 : Ref sig .tc := ⟨.hbm, 161, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  h_S_ : 0 < S_.numel
  bcast_S64x1_S64x10_0_1 : S64x1.BroadcastsInDim S64x10 (![0, 1] : Fin 2 → Fin S64x10.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x10_S64x10_1_0_0_1_n_n_wf : DotDims.WF S64x64 S64x10 S64x10 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

class Facts : Prop extends Facts₀ where

variable [Facts]
-- ==== Proof.Same.lean ====
import proofs.«420834_j16097537425459_2_alg».proof.Proof.Gen.Kernel
import proofs.«420834_j16097537425459_2_alg».proof.Proof.Gen.KernelIdeal

noncomputable section

namespace Cert.Same

open Idealize.ShloMosaic

variable {F : FTy → Type} [FloatOps F]

-- The two programs are one text under two names: their body tables agree label by label.
set_option maxHeartbeats 2000000 in
theorem defs₀_eq : Cert.Kernel.defs₀ (F := F) = Cert.KernelIdeal.defs₀ (F := F) := by
  unfold Cert.Kernel.defs₀ Cert.KernelIdeal.defs₀
  congr 1; funext l x
  rcases l with ⟨_ | _ | _ | n, hl⟩ <;> first | (rcases x with ⟨t, s⟩; rfl) | exact absurd hl (by omega)

set_option maxHeartbeats 2000000 in
theorem pcfgs_eq : Cert.Kernel.pcfgs (F := F) = Cert.KernelIdeal.pcfgs (F := F) := by
  funext p; rcases p with ⟨_ | _ | _ | n, hp⟩ <;> first | rfl | exact absurd hp (by omega)

theorem defs_congr (P : Fin 3 → Pipeline.PCfg Cert.Kernel.sig Cert.Kernel.Λ₀ (Elt F))
    (d : Defs Cert.Kernel.nD Cert.Kernel.τ Cert.Kernel.sig (Elt F) Cert.Kernel.Λ₀)
    (hP : Cert.Kernel.pcfgs = P) (hd : Cert.Kernel.defs₀ = d) : HEq (Cert.Kernel.defs (F := F)) (Pipeline.defs P d) := by
  subst hP hd; rfl

set_option maxHeartbeats 2000000 in
theorem defs_eq : Cert.Kernel.defs (F := F) = Cert.KernelIdeal.defs (F := F) :=
  eq_of_heq (defs_congr Cert.KernelIdeal.pcfgs Cert.KernelIdeal.defs₀ pcfgs_eq defs₀_eq)

end Cert.Same

end
-- ==== Proof.KI.R01Defs.lean ====
import proofs.«420834_j16097537425459_2_alg».proof.Proof.Gen.KernelIdeal.Launch
import proofs.«420834_j16097537425459_2_alg».proof.Proof.Gen.KernelIdeal.Skeleton
import proofs.«420834_j16097537425459_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S10000x128 := Rect.unit (s := S10000x128) ![0, 0] S10000x128.size inb_S10000x128_S10000x128_0_0
abbrev r0_w : Rect S128x64 := Rect.unit (s := S128x64) ![0, 0] S128x64.size inb_S128x64_S128x64_0_0
abbrev r0_o : Rect S10000x64 := Rect.unit (s := S10000x64) ![0, 0] S10000x64.size inb_S10000x64_S10000x64_0_0

def out0_2 (x0 : Vec F S10000x128 .f32) (x1 : Vec F S128x64 .f32) : Vec F S10000x64 .bf16 :=
  View.canon [⟨r0_o, k0_pay1 (View.ld x0 r0_x) (View.ld x1 r0_w)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S5000x64 := Rect.unit (s := S5000x64) ![0, 0] S5000x64.size inb_S5000x64_S5000x64_0_0
abbrev r1_d : Rect S5000x1 := Rect.unit (s := S5000x1) ![0, 0] S5000x1.size inb_S5000x1_S5000x1_0_0
abbrev r1_b : Rect S1x64 := Rect.unit (s := S1x64) ![0, 0] S1x64.size inb_S1x64_S1x64_0_0
abbrev r1_w : Rect S64x64 := Rect.unit (s := S64x64) ![0, 0] S64x64.size inb_S64x64_S64x64_0_0

def out1_5 (x0 : Vec F S5000x64 .f32) (x1 : Vec F S5000x64 .bf16) (x2 : Vec F S5000x1 .f32) (x3 : Vec F S1x64 .f32) (x4 : Vec F S64x64 .f32) :
    Vec F S5000x64 .bf16 :=
  View.canon [⟨r1_a, k1_pay1 (View.ld x1 r1_a) (View.ld x0 r1_a) (View.ld x2 r1_d) (View.ld x3 r1_b) (View.ld x4 r1_w)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

end Regions

end Cert.KernelIdeal.Fr

end
-- ==== Proof.KI.FrameR01.lean ====
import proofs.«420834_j16097537425459_2_alg».proof.Proof.KI.R01Defs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover0_2 (p0 : Vec F S10000x64 .bf16) (y : S10000x64.Idx) :
    ∃ pc ∈ ([⟨r0_o, p0⟩] : List (View.Piece (Elt F) S10000x64 .bf16)), y ∈ pc.1.set :=
  View.cover_of_tiled [⟨r0_o, p0⟩] S10000x64.size (by rfl) y

set_option maxHeartbeats 4000000 in
theorem sound_kernel0 (c : Dev nD) (E : Set ℕ) (i : grid0.Coords) (arg1 : Memref sig .tc .vmem S10000x128 .f32) (harg1 : arg1.IsWhole) (arg2 : Memref sig .tc .vmem S128x64 .f32) (harg2 : arg2.IsWhole) (arg3 : Memref sig .tc .vmem S10000x64 .bf16) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_bf16_kernel i arg1 harg1 arg2 harg2 arg3 harg3) K := by
  simp only [cc0__matmul_bf16_kernel_eq_skeleton]; unfold cc0__matmul_bf16_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe

theorem body_obligation0 (c : Dev nD) : BodyObligation (dat0 (F := F) V c) (defs₀ (F := F)) Variants.none () Set.univ := fun t => by
  rw [bigSep_W0, bigSep_W0]
  exact sound_body0 V c t

theorem cover1_5 (p0 : Vec F S5000x64 .bf16) (y : S5000x64.Idx) :
    ∃ pc ∈ ([⟨r1_a, p0⟩] : List (View.Piece (Elt F) S5000x64 .bf16)), y ∈ pc.1.set :=
  View.cover_of_tiled [⟨r1_a, p0⟩] S5000x64.size (by rfl) y

set_option maxHeartbeats 4000000 in
theorem sound_kernel1 (c : Dev nD) (E : Set ℕ) (i : grid1.Coords) (arg1 : Memref sig .tc .vmem S5000x64 .f32) (harg1 : arg1.IsWhole) (arg2 : Memref sig .tc .vmem S5000x64 .bf16) (harg2 : arg2.IsWhole) (arg3 : Memref sig .tc .vmem S5000x1 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S5000x64 .bf16) (harg6 : arg6.IsWhole)
    (x0 : Vec F S5000x64 .f32) (x1 : Vec F S5000x64 .bf16) (x2 : Vec F S5000x1 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__fused_combine_matmul_kernel i arg1 harg1 arg2 harg2 arg3 harg3 arg4 harg4 arg5 harg5 arg6 harg6) K := by
  simp only [cc1__fused_combine_matmul_kernel_eq_skeleton]; unfold cc1__fused_combine_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  iframe H0 H1 H2 H3 H4
  isplitl [H5]; · iexists _; iexact H5
  iintro ⟨H0, H1, H2, H3, H4, H5⟩
  iframe

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.R2Defs.lean ====
import proofs.«420834_j16097537425459_2_alg».proof.Proof.Gen.KernelIdeal.Launch
import proofs.«420834_j16097537425459_2_alg».proof.Proof.Gen.KernelIdeal.Skeleton
import proofs.«420834_j16097537425459_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def sumsNext (x0 : Vec F S5000x64 .f32) (x1 : Vec F S5000x64 .bf16) (x2 : Vec F S5000x1 .f32) (x3 : Vec F S1x64 .f32)
    (x4 : Vec F S5000x1 .i32) (prev : Vec F S64x64 .f32) : Vec F S64x64 .f32 :=
  k2_pay7 x1 x0 x2 x3 x4 prev

def cntsNext (x4 : Vec F S5000x1 .i32) (prev : Vec F S1x64 .f32) : Vec F S1x64 .f32 :=
  k2_pay1 (k2_pay6 x4) prev

def accAt2 (c : Dev nD) : (n : ℕ) → n < cfg2.N → Vec F S64x64 .f32 × Vec F S1x64 .f32
  | 0, hn =>
    (sumsNext (iblk2 V c 0 ⟨0, hn⟩) (iblk2 V c 1 ⟨0, hn⟩) (iblk2 V c 2 ⟨0, hn⟩) (iblk2 V c 3 ⟨0, hn⟩) (iblk2 V c 4 ⟨0, hn⟩) (k2_pay3 (F := F)),
     cntsNext (iblk2 V c 4 ⟨0, hn⟩) (k2_pay4 (F := F)))
  | n + 1, hn =>
    (sumsNext (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
        (accAt2 c n (Nat.lt_of_succ_lt hn)).1,
     cntsNext (iblk2 V c 4 ⟨n + 1, hn⟩) (accAt2 c n (Nat.lt_of_succ_lt hn)).2)

def out2_7 (x5 : Vec F S64x10 .f32) (x6 : Vec F S1x10 .f32) (sums : Vec F S64x64 .f32) (cnts : Vec F S1x64 .f32) : Vec F S64x10 .f32 :=
  k2_pay2 cnts sums x5 x6

abbrev scM2_0 : Memref sig .tc .vmem S64x64 .f32 := Memref.whole cc2_scratch0
abbrev scM2_1 : Memref sig .tc .vmem S1x64 .f32 := Memref.whole cc2_scratch1

def PhiS2 (c : Dev nD) : (n : ℕ) → n ≤ cfg2.N → sProp 𝕄
  | 0, _ => Pipeline.ΦA spec2 c
  | n + 1, hn => iprop(iprop(iprop(owns (c : Thread nD τ) scM2_0 fullShare ((accAt2 V c n hn).1) ∗ owns (c : Thread nD τ) scM2_1 fullShare ((accAt2 V c n hn).2))
      ∗ Pipeline.scopedRestBut (Ix := Unit) (Name := ℕ) (U := UR sig nD τ) (Lvl := ℕ) (Val := Elt F) spec2 c [cc2_scratch0, cc2_scratch1]) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 5 t) (iblk2 V c 6 t) (accAt2 V c t.val t.isLt).1 (accAt2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = out2_7 (iblk2 V c 5 t) (iblk2 V c 6 t) (accAt2 V c t.val t.isLt).1 (accAt2 V c t.val t.isLt).2 := by dsimp only [dat2]

end Regions

end Cert.KernelIdeal.Fr

end
-- ==== Proof.KI.Body2.lean ====
import proofs.«420834_j16097537425459_2_alg».proof.Proof.KI.R2Defs
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 0).val) 0#32)) 0#32) = 1#1

abbrev cond2_1 (i : grid2.Coords) : Prop := k2_cond2 i = 1#1

theorem hz2 : (![0, 0] : Fin 2 → Nat) = fun _ => 0 := funext fun a => by fin_cases a <;> rfl

theorem read_writes_cons_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

theorem readAt_whole {sp : Space} {S : Shape} {e : EltTy} {m : Memref sig .tc sp S e} (hm : m.IsWhole)
    {off : Fin S.rank → Nat} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h inb]

variable (c : Dev nD) (E : Set ℕ) (i : grid2.Coords) (arg1 : Memref sig .tc .vmem S5000x64 .f32) (harg1 : arg1.IsWhole) (arg2 : Memref sig .tc .vmem S5000x64 .bf16) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x1 .i32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S1x64 .f32) (harg10 : arg10.IsWhole)
  (x0 : Vec F S5000x64 .f32) (x1 : Vec F S5000x64 .bf16) (x2 : Vec F S5000x1 .f32) (x3 : Vec F S1x64 .f32) (x4 : Vec F S5000x1 .i32) (x5 : Vec F S64x10 .f32) (x6 : Vec F S1x10 .f32)

set_option maxHeartbeats 1600000 in
theorem sound_kernel2_first (hc0 : cond2_0 i) (hc1 : ¬cond2_1 i) (xi7 : Vec F S64x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7
            ∗ owns (c : Thread nD τ) arg9 fullShare (sumsNext x0 x1 x2 x3 x4 (k2_pay3 (F := F)))
            ∗ owns (c : Thread nD τ) arg10 fullShare (cntsNext x4 (k2_pay4 (F := F)))) -∗ K ⟨⟩))
      ⊢ wp frame (wpE (defs₀ (F := F)) Variants.none c none) E (cc2__fused_pool_kernel i arg1 harg1 arg2 harg2 arg3 harg3 arg4 harg4 arg5 harg5 arg6 harg6 arg7 harg7 arg8 harg8 arg9 harg9 arg10 harg10) K := by
  simp only [cc2__fused_pool_kernel_eq_skeleton]; unfold cc2__fused_pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, %hf8, H8⟩, ⟨%d9, %f9, %hf9, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  all_goals
    iexists _; isplitr; swap; · iassumption
    ipureintro
    sl_unfold_words
    rw [read_writes_cons_whole _ _ hz2]
    simp only [View.readCov_cons_toLoadRect, readAt_whole (S := S5000x64) harg1 hz2, readAt_whole (S := S5000x64) harg2 hz2,
      readAt_whole (S := S5000x1) harg3 hz2, readAt_whole (S := S1x64) harg4 hz2, readAt_whole (S := S5000x1) harg5 hz2,
      readAt_whole (S := S64x10) harg6 hz2, readAt_whole (S := S1x10) harg7 hz2, readAt_whole (S := S64x64) harg9 hz2,
      readAt_whole (S := S1x64) harg10 hz2]
    rfl

set_option maxHeartbeats 1600000 in
theorem sound_kernel2_mid (hc0 : ¬cond2_0 i) (hc1 : ¬cond2_1 i) (xi7 : Vec F S64x10 .f32) (s : Vec F S64x64 .f32) (k : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare s ∗ owns (c : Thread nD τ) arg10 fullShare k
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7
            ∗ owns (c : Thread nD τ) arg9 fullShare (sumsNext x0 x1 x2 x3 x4 s)
            ∗ owns (c : Thread nD τ) arg10 fullShare (cntsNext x4 k)) -∗ K ⟨⟩))
      ⊢ wp frame (wpE (defs₀ (F := F)) Variants.none c none) E (cc2__fused_pool_kernel i arg1 harg1 arg2 harg2 arg3 harg3 arg4 harg4 arg5 harg5 arg6 harg6 arg7 harg7 arg8 harg8 arg9 harg9 arg10 harg10) K := by
  simp only [cc2__fused_pool_kernel_eq_skeleton]; unfold cc2__fused_pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  all_goals
    iexists _; isplitr; swap; · iassumption
    ipureintro
    rw [read_writes_cons_whole _ _ hz2]
    simp only [View.readCov_cons_toLoadRect, readAt_whole (S := S5000x64) harg1 hz2, readAt_whole (S := S5000x64) harg2 hz2,
      readAt_whole (S := S5000x1) harg3 hz2, readAt_whole (S := S1x64) harg4 hz2, readAt_whole (S := S5000x1) harg5 hz2,
      readAt_whole (S := S64x10) harg6 hz2, readAt_whole (S := S1x10) harg7 hz2, readAt_whole (S := S64x64) harg9 hz2,
      readAt_whole (S := S1x64) harg10 hz2]
    rfl

set_option maxHeartbeats 1600000 in
theorem sound_kernel2_last (hc0 : ¬cond2_0 i) (hc1 : cond2_1 i) (s : Vec F S64x64 .f32) (k : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare s ∗ owns (c : Thread nD τ) arg10 fullShare k
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x5 x6 (sumsNext x0 x1 x2 x3 x4 s) (cntsNext x4 k))
            ∗ owns (c : Thread nD τ) arg9 fullShare (sumsNext x0 x1 x2 x3 x4 s)
            ∗ owns (c : Thread nD τ) arg10 fullShare (cntsNext x4 k)) -∗ K ⟨⟩))
      ⊢ wp frame (wpE (defs₀ (F := F)) Variants.none c none) E (cc2__fused_pool_kernel i arg1 harg1 arg2 harg2 arg3 harg3 arg4 harg4 arg5 harg5 arg6 harg6 arg7 harg7 arg8 harg8 arg9 harg9 arg10 harg10) K := by
  simp only [cc2__fused_pool_kernel_eq_skeleton]; unfold cc2__fused_pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, %hf7, H7⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]; rotate_left; isplitl [H8]
  all_goals
    iexists _; isplitr; swap; · iassumption
    ipureintro
    sl_unfold_words
    rw [read_writes_cons_whole _ _ hz2]
    simp only [View.readCov_cons_toLoadRect, readAt_whole (S := S5000x64) harg1 hz2, readAt_whole (S := S5000x64) harg2 hz2,
      readAt_whole (S := S5000x1) harg3 hz2, readAt_whole (S := S1x64) harg4 hz2, readAt_whole (S := S5000x1) harg5 hz2,
      readAt_whole (S := S64x10) harg6 hz2, readAt_whole (S := S1x10) harg7 hz2, readAt_whole (S := S64x64) harg9 hz2,
      readAt_whole (S := S1x64) harg10 hz2]
    rfl

end Cert.KernelIdeal.Fr

end
-- ==== Proof.KI.Frame2.lean ====
import proofs.«420834_j16097537425459_2_alg».proof.Proof.KI.Body2

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hcond2_0 : ∀ t : Fin cfg2.N, cond2_0 (grid2.coords t) ↔ t.val % 20 = 0 :=
  (by decide +kernel : ∀ t : Fin grid2.N, cond2_0 (grid2.coords t) ↔ t.val % 20 = 0)

theorem hcond2_1 : ∀ t : Fin cfg2.N, cond2_1 (grid2.coords t) ↔ t.val % 20 = 19 :=
  (by decide +kernel : ∀ t : Fin grid2.N, cond2_1 (grid2.coords t) ↔ t.val % 20 = 19)

theorem liveAt2_0 : ∀ t : Fin cfg2.N, cfg2.idle 0 (grid2.coords t) = false := by decide +kernel

theorem liveAt2_1 : ∀ t : Fin cfg2.N, cfg2.idle 1 (grid2.coords t) = false := by decide +kernel

theorem liveAt2_2 : ∀ t : Fin cfg2.N, cfg2.idle 2 (grid2.coords t) = false := by decide +kernel

theorem liveAt2_3 : ∀ t : Fin cfg2.N, cfg2.idle 3 (grid2.coords t) = false := by decide +kernel

theorem liveAt2_4 : ∀ t : Fin cfg2.N, cfg2.idle 4 (grid2.coords t) = false := by decide +kernel

theorem liveAt2_5 : ∀ t : Fin cfg2.N, cfg2.idle 5 (grid2.coords t) = false := by decide +kernel

theorem liveAt2_6 : ∀ t : Fin cfg2.N, cfg2.idle 6 (grid2.coords t) = false := by decide +kernel

theorem idleAt2_7 : ∀ t : Fin cfg2.N, ¬cond2_1 (grid2.coords t) → cfg2.idle 7 (grid2.coords t) = true := by decide +kernel

theorem noFlush2_7 : ∀ t : Fin cfg2.N, ¬cond2_1 (grid2.coords t) → (cfg2.win 7).flush t = false := by decide +kernel

theorem liveAt2_7 : ∀ t : Fin cfg2.N, cond2_1 (grid2.coords t) → cfg2.idle 7 (grid2.coords t) = false := by decide +kernel

abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S5000x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S5000x1 .i32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S64x10 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x10 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S64x10 .f32 := win2_7.stage (cfg2.slots t 7)
abbrev hs2_7 (t : Fin cfg2.N) : (ms2_7 t).IsWhole := hstage2_7 ((cfg2.slots t 7).cast nbuf2_7)

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl
theorem before2_6 (c : Dev nD) (t : Fin cfg2.N) (d) : (dat2 V c).before 6 t d = iblk2 V c 6 t :=
  ((dat2 V c).before_in_eq_fetched 6 rfl (fun _ => rfl) (fun _ _ _ => rfl) (fun _ => rfl) t d).trans rfl

theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))
          ∗ Pipeline.scopedRestBut (Ix := Unit) (Name := ℕ) (U := UR sig nD τ) (Lvl := ℕ) (Val := Elt F) spec2 c [cc2_scratch0, cc2_scratch1]) :=
  Pipeline.scopedRest_split_of_list spec2 c [cc2_scratch0, cc2_scratch1] (by decide) (by decide)

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((accAt2 V c n hn).1) ∗ owns (c : Thread nD τ) scM2_1 fullShare ((accAt2 V c n hn).2))
      ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((accAt2 V c (n - 1) (by omega)).1) ∗ owns (c : Thread nD τ) scM2_1 fullShare ((accAt2 V c (n - 1) (by omega)).2))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

theorem PhiS2_castSucc (c : Dev nD) (t : Fin cfg2.N) :
    (dat2 V c).Φ t.castSucc = PhiS2 V c t.val (Nat.le_of_lt t.isLt) := by
  dsimp only [dat2]; simp only [Fin.coe_castSucc]

theorem accAt2_zero (c : Dev nD) (t : Fin cfg2.N) (hz : t.val = 0) :
    accAt2 V c t.val t.isLt
      = (sumsNext (iblk2 V c 0 t) (iblk2 V c 1 t) (iblk2 V c 2 t) (iblk2 V c 3 t) (iblk2 V c 4 t) (k2_pay3 (F := F)),
         cntsNext (iblk2 V c 4 t) (k2_pay4 (F := F))) := by
  obtain ⟨n, hn⟩ := t
  cases n with
  | zero => rfl
  | succ n => exact absurd hz (Nat.succ_ne_zero n)

theorem accAt2_succ (c : Dev nD) (t : Fin cfg2.N) (hz : t.val ≠ 0) :
    accAt2 V c t.val t.isLt
      = (sumsNext (iblk2 V c 0 t) (iblk2 V c 1 t) (iblk2 V c 2 t) (iblk2 V c 3 t) (iblk2 V c 4 t)
            (accAt2 V c (t.val - 1) (Nat.lt_of_le_of_lt (Nat.sub_le _ _) t.isLt)).1,
         cntsNext (iblk2 V c 4 t) (accAt2 V c (t.val - 1) (Nat.lt_of_le_of_lt (Nat.sub_le _ _) t.isLt)).2) := by
  obtain ⟨n, hn⟩ := t
  cases n with
  | zero => exact absurd rfl hz
  | succ n => rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

theorem leaves2_0 (c : Dev nD) (t : Fin cfg2.N) :
    (dat2 V c).leavesExact 0 t = owns (c : Thread nD τ) (ms2_0 t) fullShare (iblk2 V c 0 t) := by
  unfold Dat.leavesExact; rw [liveAt2_0 t, after2_0]

theorem leaves2_1 (c : Dev nD) (t : Fin cfg2.N) :
    (dat2 V c).leavesExact 1 t = owns (c : Thread nD τ) (ms2_1 t) fullShare (iblk2 V c 1 t) := by
  unfold Dat.leavesExact; rw [liveAt2_1 t, after2_1]

theorem leaves2_2 (c : Dev nD) (t : Fin cfg2.N) :
    (dat2 V c).leavesExact 2 t = owns (c : Thread nD τ) (ms2_2 t) fullShare (iblk2 V c 2 t) := by
  unfold Dat.leavesExact; rw [liveAt2_2 t, after2_2]

theorem leaves2_3 (c : Dev nD) (t : Fin cfg2.N) :
    (dat2 V c).leavesExact 3 t = owns (c : Thread nD τ) (ms2_3 t) fullShare (iblk2 V c 3 t) := by
  unfold Dat.leavesExact; rw [liveAt2_3 t, after2_3]

theorem leaves2_4 (c : Dev nD) (t : Fin cfg2.N) :
    (dat2 V c).leavesExact 4 t = owns (c : Thread nD τ) (ms2_4 t) fullShare (iblk2 V c 4 t) := by
  unfold Dat.leavesExact; rw [liveAt2_4 t, after2_4]

theorem leaves2_5 (c : Dev nD) (t : Fin cfg2.N) :
    (dat2 V c).leavesExact 5 t = owns (c : Thread nD τ) (ms2_5 t) fullShare (iblk2 V c 5 t) := by
  unfold Dat.leavesExact; rw [liveAt2_5 t, after2_5]

theorem leaves2_6 (c : Dev nD) (t : Fin cfg2.N) :
    (dat2 V c).leavesExact 6 t = owns (c : Thread nD τ) (ms2_6 t) fullShare (iblk2 V c 6 t) := by
  unfold Dat.leavesExact; rw [liveAt2_6 t, after2_6]

theorem leaves2_7_last (c : Dev nD) (t : Fin cfg2.N) (h1 : cond2_1 (grid2.coords t)) :
    (dat2 V c).leavesExact 7 t = owns (c : Thread nD τ) (ms2_7 t) fullShare
      (out2_7 (iblk2 V c 5 t) (iblk2 V c 6 t) (accAt2 V c t.val t.isLt).1 (accAt2 V c t.val t.isLt).2) := by
  unfold Dat.leavesExact; rw [liveAt2_7 t h1, after2_7]

theorem leaves2_7_idle (c : Dev nD) (t : Fin cfg2.N) (h1 : ¬cond2_1 (grid2.coords t)) :
    (dat2 V c).leavesExact 7 t = iprop(∃ d, owns (c : Thread nD τ) (ms2_7 t) fullShare ((dat2 V c).before 7 t d)) :=
  Dat.leavesExact_idle (dat2 V c) 7 t (idleAt2_7 t h1) (noFlush2_7 t h1)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5, leaves2_6]
  have hN : t.val < 20 := lt_of_lt_of_eq t.isLt (show cfg2.N = 20 from N_2)
  by_cases h0 : t.val % 20 = 0
  · by_cases h1 : t.val % 20 = 19
    · exfalso; omega
    ·
      have hz : t.val = 0 := by omega
      have hc0 : cond2_0 (grid2.coords t) := (hcond2_0 t).mpr h0
      have hc1 : ¬cond2_1 (grid2.coords t) := fun h => h1 ((hcond2_1 t).mp h)
      rw [leaves2_7_idle V c t hc1, accAt2_zero V c t hz]
      (try dsimp only)
      rw [PhiS2_castSucc V c t, PhiS2_zero V c _ _ hz, PhiA2_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel2_first c Set.univ (grid2.coords t) _ _ _ _ _ _ _ _ _ _ _ _ _ _ _ _ _ _ _ _
        (iblk2 V c 0 t) (iblk2 V c 1 t) (iblk2 V c 2 t) (iblk2 V c 3 t) (iblk2 V c 4 t) (iblk2 V c 5 t) (iblk2 V c 6 t) hc0 hc1 ((dat2 V c).before 7 t d7) _)
      iframe H0 H1 H2 H3 H4 H5 H6 H7 HS0 HS1
      iintro ⟨H0, H1, H2, H3, H4, H5, H6, H7, HS0, HS1⟩
      iframe HS0 HS1 Hrest Hg Ho H0 H1 H2 H3 H4 H5 H6
      iexists _; iexact H7
  · have hz : t.val ≠ 0 := fun e => h0 (by rw [e])
    have hc0 : ¬cond2_0 (grid2.coords t) := fun h => h0 ((hcond2_0 t).mp h)
    by_cases h1 : t.val % 20 = 19
    ·
      have hc1 : cond2_1 (grid2.coords t) := (hcond2_1 t).mpr h1
      rw [leaves2_7_last V c t hc1, accAt2_succ V c t hz]
      (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel2_last c Set.univ (grid2.coords t) _ _ _ _ _ _ _ _ _ _ _ _ _ _ _ _ _ _ _ _
        (iblk2 V c 0 t) (iblk2 V c 1 t) (iblk2 V c 2 t) (iblk2 V c 3 t) (iblk2 V c 4 t) (iblk2 V c 5 t) (iblk2 V c 6 t) hc0 hc1 _ _ _)
      iframe H0 H1 H2 H3 H4 H5 H6
      isplitl [H7]; · iexists _; iexact H7
      iframe HS0 HS1
      iintro ⟨H0, H1, H2, H3, H4, H5, H6, H7, HS0, HS1⟩
      iframe
    ·
      have hc1 : ¬cond2_1 (grid2.coords t) := fun h => h1 ((hcond2_1 t).mp h)
      rw [leaves2_7_idle V c t hc1, accAt2_succ V c t hz]
      (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel2_mid c Set.univ (grid2.coords t) _ _ _ _ _ _ _ _ _ _ _ _ _ _ _ _ _ _ _ _
        (iblk2 V c 0 t) (iblk2 V c 1 t) (iblk2 V c 2 t) (iblk2 V c 3 t) (iblk2 V c 4 t) (iblk2 V c 5 t) (iblk2 V c 6 t) hc0 hc1 ((dat2 V c).before 7 t d7) _ _ _)
      iframe H0 H1 H2 H3 H4 H5 H6 H7 HS0 HS1
      iintro ⟨H0, H1, H2, H3, H4, H5, H6, H7, HS0, HS1⟩
      iframe HS0 HS1 Hrest Hg Ho H0 H1 H2 H3 H4 H5 H6
      iexists _; iexact H7

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 (F := F) V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout2 (c : Dev nD) : (dat2 (F := F) V c).Φ (Fin.last cfg2.N) ⊢ (Pipeline.ΦA spec2 c : sProp 𝕄) :=
  Phi_out2 V c _ (by rw [Fin.val_last]; have : cfg2.N = 20 := N_2; omega)

end Cert.KernelIdeal.Fr

end
-- ==== Proof.KI.RunAll.lean ====
import proofs.«420834_j16097537425459_2_alg».proof.Proof.KI.FrameR01
import proofs.«420834_j16097537425459_2_alg».proof.Proof.KI.Frame2
import proofs.«420834_j16097537425459_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

theorem W6_out (c : Dev nD) : W6 m ρ c (Proc.devRef .tc main_v61) = (dat2 (V5 m ρ) c).arrAt 7 cfg2.N :=
  W6_arr m ρ c 7

theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h

theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h

theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))

theorem W6_arg (c : Dev nD) (b : Ref sig .tc) (h0 : b ∉ hostOps0_W) (h1 : b ∉ hostOps1_W) (h2 : b ∉ hostOps2_W)
    (k0 : W2 m ρ c (Proc.devRef .tc b) = W1 m ρ c (Proc.devRef .tc b))
    (k1 : W4 m ρ c (Proc.devRef .tc b) = W3 m ρ c (Proc.devRef .tc b))
    (k2 : W6 m ρ c (Proc.devRef .tc b) = W5 m ρ c (Proc.devRef .tc b)) :
    W6 m ρ c (Proc.devRef .tc b) = m ((c : Thread nD τ).loc b) :=
  k2.trans <| (W5_keep m ρ c b h2).trans <| k1.trans <| (W3_keep m ρ c b h1).trans <| k0.trans <| W1_keep m ρ c b h0

theorem W6_main_arg0 (c : Dev nD) : W6 m ρ c (Proc.devRef .tc main_arg0) = m ((c : Thread nD τ).loc main_arg0) :=
  W6_arg m ρ c main_arg0 (by decide) (by decide) (by decide)
    (W2_in m ρ c 0 rfl)
    (W4_of_ne m ρ c main_arg0 (by decide))
    (W6_of_ne m ρ c main_arg0 (by decide))

theorem W6_main_arg1 (c : Dev nD) : W6 m ρ c (Proc.devRef .tc main_arg1) = m ((c : Thread nD τ).loc main_arg1) :=
  W6_arg m ρ c main_arg1 (by decide) (by decide) (by decide)
    (W2_of_ne m ρ c main_arg1 (by decide))
    (W4_of_ne m ρ c main_arg1 (by decide))
    (W6_of_ne m ρ c main_arg1 (by decide))

theorem W6_main_arg2 (c : Dev nD) : W6 m ρ c (Proc.devRef .tc main_arg2) = m ((c : Thread nD τ).loc main_arg2) :=
  W6_arg m ρ c main_arg2 (by decide) (by decide) (by decide)
    (W2_of_ne m ρ c main_arg2 (by decide))
    (W4_of_ne m ρ c main_arg2 (by decide))
    (W6_of_ne m ρ c main_arg2 (by decide))

theorem W6_main_arg3 (c : Dev nD) : W6 m ρ c (Proc.devRef .tc main_arg3) = m ((c : Thread nD τ).loc main_arg3) :=
  W6_arg m ρ c main_arg3 (by decide) (by decide) (by decide)
    (W2_in m ρ c 1 rfl)
    (W4_of_ne m ρ c main_arg3 (by decide))
    (W6_of_ne m ρ c main_arg3 (by decide))

theorem W6_main_arg4 (c : Dev nD) : W6 m ρ c (Proc.devRef .tc main_arg4) = m ((c : Thread nD τ).loc main_arg4) :=
  W6_arg m ρ c main_arg4 (by decide) (by decide) (by decide)
    (W2_of_ne m ρ c main_arg4 (by decide))
    (W4_of_ne m ρ c main_arg4 (by decide))
    (W6_of_ne m ρ c main_arg4 (by decide))

theorem W6_main_arg5 (c : Dev nD) : W6 m ρ c (Proc.devRef .tc main_arg5) = m ((c : Thread nD τ).loc main_arg5) :=
  W6_arg m ρ c main_arg5 (by decide) (by decide) (by decide)
    (W2_of_ne m ρ c main_arg5 (by decide))
    (W4_in m ρ c 4 rfl)
    (W6_of_ne m ρ c main_arg5 (by decide))

theorem W6_main_arg6 (c : Dev nD) : W6 m ρ c (Proc.devRef .tc main_arg6) = m ((c : Thread nD τ).loc main_arg6) :=
  W6_arg m ρ c main_arg6 (by decide) (by decide) (by decide)
    (W2_of_ne m ρ c main_arg6 (by decide))
    (W4_of_ne m ρ c main_arg6 (by decide))
    (W6_of_ne m ρ c main_arg6 (by decide))

theorem W6_main_arg7 (c : Dev nD) : W6 m ρ c (Proc.devRef .tc main_arg7) = m ((c : Thread nD τ).loc main_arg7) :=
  W6_arg m ρ c main_arg7 (by decide) (by decide) (by decide)
    (W2_of_ne m ρ c main_arg7 (by decide))
    (W4_of_ne m ρ c main_arg7 (by decide))
    (W6_in m ρ c 5 rfl)

theorem W6_main_arg8 (c : Dev nD) : W6 m ρ c (Proc.devRef .tc main_arg8) = m ((c : Thread nD τ).loc main_arg8) :=
  W6_arg m ρ c main_arg8 (by decide) (by decide) (by decide)
    (W2_of_ne m ρ c main_arg8 (by decide))
    (W4_of_ne m ρ c main_arg8 (by decide))
    (W6_of_ne m ρ c main_arg8 (by decide))

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W6 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    have hΦ := hin2 (V5 m ρ) c
    unfold Pipeline.ΦA at hΦ
    iintro ⟨Hp, -, Hr⟩
    iapply hΦ
    isplitl [Hr]; · iexact Hr
    iexact Hp
  hout c := by
    rw [Pipeline.ownSems0_none, show (pdats m ρ 2 c).Φ (Fin.last _) = (dat2 (V5 m ρ) c).Φ (Fin.last cfg2.N) from rfl]
    have hΦ := hout2 (V5 m ρ) c
    unfold Pipeline.ΦA at hΦ
    iintro HΦ
    ihave H := hΦ $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h => h)

theorem run_args : θ_run defs (onTc (τ := τ) (main (F := F))) ⟨m, fun _ => 0, ρ⟩ (fun r => ∀ c : Dev nD,
      r.2.mem ((c.tc : Thread nD τ).loc main_v61) = W6 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v61 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c)⟩) (run_all m ρ)

end Cert.KernelIdeal.Fr

end
-- ==== Proof.Val.HostK.lean ====
import proofs.«420834_j16097537425459_2_alg».proof.Proof.Gen.KernelIdeal.Launch
import Idealize.ShloMosaic.Lib.StableHlo.Run
import Idealize.ShloMosaic.Lib.Pipeline.Value
import Idealize.ShloMosaic.Lib.ValueLayout

set_option maxRecDepth 16384

noncomputable section

namespace Cert.KernelIdeal.Val

open Idealize.ShloMosaic Idealize.ShloMosaic.TcCoe Idealize.ShloMosaic.StableHlo
open Idealize.ShloMosaic.ValueIdx
open Cert.KernelIdeal Cert.KernelIdeal.Gen

variable {F : FTy → Type} [FloatOps F]

def srcOf (ei : IVec S2x1600000 32) : IVec S1600000 32 :=
  shapeCast S1600000 (extractStridedSlice S1x1600000 ![0, 0] ei slices_S2x1600000_S1x1600000_0_0) shapeCasts_S1x1600000_S1600000

def dstOf (ei : IVec S2x1600000 32) : IVec S1600000 32 :=
  shapeCast S1600000 (extractStridedSlice S1x1600000 ![1, 0] ei slices_S2x1600000_S1x1600000_1_0) shapeCasts_S1x1600000_S1600000

def normIdx (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

def dinvOf (ei : IVec S2x1600000 32) : FVec F S100000 .f32 :=
  Host.rsqrt (addf
    (Host.scatterAdd scatter_S100000_S1600000x1_S1600000_n_0_0_1
      (broadcastInDim S100000 ![] bcast_S_S100000 (constant (F := F) S_ .f32 0x00000000#32))
      (broadcastInDim S1600000x1 ![0] bcast_S1600000_S1600000x1_0 (dstOf ei))
      (broadcastInDim S1600000 ![] bcast_S_S1600000 (constant (F := F) S_ .f32 0x3F800000#32)))
    (broadcastInDim S100000 ![] bcast_S_S100000 (constant (F := F) S_ .f32 0x3F800000#32)))

def d2colOf (ei : IVec S2x1600000 32) : FVec F S100000x1 .f32 :=
  shapeCast S100000x1 (mulf (dinvOf (F := F) ei) (dinvOf (F := F) ei)) shapeCasts_S100000_S100000x1

def normcolOf (ei : IVec S2x1600000 32) : FVec F S1600000x1 .f32 :=
  shapeCast S1600000x1
    (mulf
      (Host.gather gather_S100000_S1600000x1_S1600000_n_0_n_n_0_1_1 (dinvOf (F := F) ei)
        (broadcastInDim S1600000x1 ![0] bcast_S1600000_S1600000x1_0 (normIdx (srcOf ei))))
      (Host.gather gather_S100000_S1600000x1_S1600000_n_0_n_n_0_1_1 (dinvOf (F := F) ei)
        (broadcastInDim S1600000x1 ![0] bcast_S1600000_S1600000x1_0 (normIdx (dstOf ei)))))
    shapeCasts_S1600000_S1600000x1

def aggOf (src dst : IVec S1600000 32) (normcol : FVec F S1600000x1 .f32) (h : FVec F S100000x64 .bf16) : FVec F S100000x64 .f32 :=
  Host.scatterAdd scatter_S100000x64_S1600000x1_S1600000x64_1_0_0_1
    (broadcastInDim S100000x64 ![] bcast_S_S100000x64 (constant (F := F) S_ .f32 0x00000000#32))
    (broadcastInDim S1600000x1 ![0] bcast_S1600000_S1600000x1_0 dst)
    (mulf
      (extf .f32 (Host.gather gather_S100000x64_S1600000x1_S1600000x64_1_0_n_n_0_1_164 h
        (broadcastInDim S1600000x1 ![0] bcast_S1600000_S1600000x1_0 (normIdx src))) bitsLt_bf16_f32)
      (broadcastInDim S1600000x64 ![0, 1] bcast_S1600000x1_S1600000x64_0_1 normcol))

theorem v1_eq (Wa : Valuation τ sig (Elt F)) :
    (StableHlo.after (hostOps0 (F := F)) Wa (Proc.devRef .tc main_v1) : IVec S1600000 32)
      = srcOf (Wa (Proc.devRef .tc main_arg1)) := by
  show StableHlo.after hostOps0 Wa (Proc.devRef .tc main_v1) = _; after_results_simp; rfl

theorem v3_eq (Wa : Valuation τ sig (Elt F)) :
    (StableHlo.after (hostOps0 (F := F)) Wa (Proc.devRef .tc main_v3) : IVec S1600000 32)
      = dstOf (Wa (Proc.devRef .tc main_arg1)) := by
  show StableHlo.after hostOps0 Wa (Proc.devRef .tc main_v3) = _; after_results_simp; rfl

theorem v4_eq (Wa : Valuation τ sig (Elt F)) :
    (StableHlo.after (hostOps0 (F := F)) Wa (Proc.devRef .tc main_v4) : IVec S100000x1 32)
      = shapeCast S100000x1 (Wa (Proc.devRef .tc main_arg2) : IVec S100000 32) shapeCasts_S100000_S100000x1 := by
  show StableHlo.after hostOps0 Wa (Proc.devRef .tc main_v4) = _; after_results_simp; rfl

theorem v13_eq (Wa : Valuation τ sig (Elt F)) :
    (StableHlo.after (hostOps0 (F := F)) Wa (Proc.devRef .tc main_v13) : FVec F S100000x1 .f32)
      = d2colOf (F := F) (Wa (Proc.devRef .tc main_arg1)) := by
  show StableHlo.after hostOps0 Wa (Proc.devRef .tc main_v13) = _; after_results_simp; rfl

theorem v29_eq (Wa : Valuation τ sig (Elt F)) :
    (StableHlo.after (hostOps0 (F := F)) Wa (Proc.devRef .tc main_v29) : FVec F S1600000x1 .f32)
      = normcolOf (F := F) (Wa (Proc.devRef .tc main_arg1)) := by
  show StableHlo.after hostOps0 Wa (Proc.devRef .tc main_v29) = _; after_results_simp; rfl

theorem v30_eq (Wa : Valuation τ sig (Elt F)) :
    (StableHlo.after (hostOps0 (F := F)) Wa (Proc.devRef .tc main_v30) : FVec F S1x64 .f32)
      = shapeCast S1x64 (Wa (Proc.devRef .tc main_arg4) : FVec F S64 .f32) shapeCasts_S64_S1x64 := by
  show StableHlo.after hostOps0 Wa (Proc.devRef .tc main_v30) = _; after_results_simp; rfl

theorem v31_eq (Wa : Valuation τ sig (Elt F)) :
    (StableHlo.after (hostOps0 (F := F)) Wa (Proc.devRef .tc main_v31) : FVec F S1x64 .f32)
      = shapeCast S1x64 (Wa (Proc.devRef .tc main_arg6) : FVec F S64 .f32) shapeCasts_S64_S1x64 := by
  show StableHlo.after hostOps0 Wa (Proc.devRef .tc main_v31) = _; after_results_simp; rfl

theorem v32_eq (Wa : Valuation τ sig (Elt F)) :
    (StableHlo.after (hostOps0 (F := F)) Wa (Proc.devRef .tc main_v32) : FVec F S1x10 .f32)
      = shapeCast S1x10 (Wa (Proc.devRef .tc main_arg8) : FVec F S10 .f32) shapeCasts_S10_S1x10 := by
  show StableHlo.after hostOps0 Wa (Proc.devRef .tc main_v32) = _; after_results_simp; rfl

theorem v46_eq (Wa : Valuation τ sig (Elt F)) :
    (StableHlo.after (hostOps1 (F := F)) Wa (Proc.devRef .tc main_v46) : FVec F S100000x64 .f32)
      = aggOf (F := F) (Wa (Proc.devRef .tc main_v1)) (Wa (Proc.devRef .tc main_v3)) (Wa (Proc.devRef .tc main_v29))
          (Wa (Proc.devRef .tc main_v33)) := by
  show StableHlo.after hostOps1 Wa (Proc.devRef .tc main_v46) = _; after_results_simp; rfl

theorem v60_eq (Wa : Valuation τ sig (Elt F)) :
    (StableHlo.after (hostOps2 (F := F)) Wa (Proc.devRef .tc main_v60) : FVec F S100000x64 .f32)
      = aggOf (F := F) (Wa (Proc.devRef .tc main_v1)) (Wa (Proc.devRef .tc main_v3)) (Wa (Proc.devRef .tc main_v29))
          (Wa (Proc.devRef .tc main_v47)) := by
  show StableHlo.after hostOps2 Wa (Proc.devRef .tc main_v60) = _; after_results_simp; rfl

theorem shapeCast_a_a1_apply {α : Type} {a : ℕ} (x : (⟨1, ![a]⟩ : Shape).Idx → α) (h : (⟨1, ![a]⟩ : Shape).ShapeCasts ⟨2, ![a, 1]⟩)
    (n : Fin a) (u : Fin 1) : shapeCast ⟨2, ![a, 1]⟩ x h (ix2 n u) = x (ix1 n) := by
  refine shapeCast_apply x h _ _ ?_
  have hu : u.val = 0 := by omega
  rw [Shape.rowMajor_val_two, Shape.rowMajor_val_one]
  show n.val = n.val * 1 + u.val
  rw [hu, Nat.mul_one, Nat.add_zero]

theorem v4_apply (x : IVec S100000 32) (n : Fin 100000) (u : Fin 1) :
    shapeCast S100000x1 x shapeCasts_S100000_S100000x1 (ix2 n u) = x (ix1 n) :=
  shapeCast_a_a1_apply x _ n u

theorem v30_apply {α : Type} (x : S64.Idx → α) (u : Fin 1) (k : Fin 64) :
    shapeCast S1x64 x shapeCasts_S64_S1x64 (ix2 u k) = x (ix1 k) :=
  shapeCast_a_1a_apply x _ u k

theorem v32_apply {α : Type} (x : S10.Idx → α) (u : Fin 1) (k : Fin 10) :
    shapeCast S1x10 x shapeCasts_S10_S1x10 (ix2 u k) = x (ix1 k) :=
  shapeCast_a_1a_apply x _ u k

end Cert.KernelIdeal.Val

end
-- ==== Proof.LibCols.lean ====
import Idealize.ShloMosaic.Lib.ValueIdx
import Idealize.ShloMosaic.Lib.Pipeline.Value

namespace Idealize.ShloMosaic.ValueIdx

open Idealize.ShloMosaic

-- A column broadcast along its rows reads the column's entry of the same row.
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Spec.lean ====
import Idealize.ShloMosaic.Lib.ValueIdx
import Idealize.ShloMosaic.PureOps.Ideal.Laws

noncomputable section

open scoped BigOperators

namespace Cert.Spec

open Idealize.ShloMosaic

abbrev zeroE : EReal := Ideal.ofBits .f32 0x00000000#32
abbrev oneE : EReal := Ideal.ofBits .f32 0x3F800000#32
abbrev ninfE : EReal := Ideal.ofBits .f32 0xFF800000#32

def mm {A K B : ℕ} (x : Fin A → Fin K → EReal) (w : Fin K → Fin B → EReal) : Fin A → Fin B → EReal :=
  fun a b => ∑ k : Fin K, x a k * w k b

def combine {N H : ℕ} (ag h : Fin N → Fin H → EReal) (d2 : Fin N → EReal) (b : Fin H → EReal) : Fin N → Fin H → EReal :=
  fun n k => max (ag n k + h n k * d2 n + b k) zeroE

def segSum {N G H : ℕ} (bt : Fin N → ℤ) (h : Fin N → Fin H → EReal) : Fin G → Fin H → EReal :=
  fun g k => ∑ n ∈ Finset.univ.filter (fun n : Fin N => bt n = (g.val : ℤ)), h n k

def segCnt {N G : ℕ} (bt : Fin N → ℤ) : Fin G → EReal :=
  fun g => ∑ _n ∈ Finset.univ.filter (fun n : Fin N => bt n = (g.val : ℤ)), oneE

def pooled {G H : ℕ} (s : Fin G → Fin H → EReal) (c : Fin G → EReal) : Fin G → Fin H → EReal :=
  fun g k => Ideal.div (s g k) (max (c g) oneE)

def logits {G H C : ℕ} (p : Fin G → Fin H → EReal) (wl : Fin H → Fin C → EReal) (bl : Fin C → EReal) : Fin G → Fin C → EReal :=
  fun g j => (∑ k : Fin H, p g k * wl k j) + bl j

def rowMax {G C : ℕ} (l : Fin G → Fin C → EReal) : Fin G → EReal :=
  fun g => (Finset.univ : Finset (Fin C)).fold max ninfE (fun j => l g j)

def lsm {G C : ℕ} (l : Fin G → Fin C → EReal) : Fin G → Fin C → EReal :=
  fun g j => (l g j - rowMax l g) - Ideal.log (∑ j' : Fin C, Ideal.exp (l g j' - rowMax l g))

def net {N F H G C : ℕ} (agg : (Fin N → Fin H → EReal) → Fin N → Fin H → EReal) (d2 : Fin N → EReal)
    (x : Fin N → Fin F → EReal) (w1 : Fin F → Fin H → EReal) (b1 : Fin H → EReal)
    (w2 : Fin H → Fin H → EReal) (b2 : Fin H → EReal) (bt : Fin N → ℤ)
    (wl : Fin H → Fin C → EReal) (bl : Fin C → EReal) : Fin G → Fin C → EReal :=
  let h1 := mm x w1
  let a1 := combine (agg h1) h1 d2 b1
  let h2 := mm a1 w2
  let a2 := combine (agg h2) h2 d2 b2
  lsm (logits (pooled (segSum bt a2) (segCnt bt)) wl bl)

end Cert.Spec

end
-- ==== Proof.Val.Val01.lean ====
import proofs.«420834_j16097537425459_2_alg».proof.Proof.LibCols
import proofs.«420834_j16097537425459_2_alg».proof.Proof.KI.R01Defs
import proofs.«420834_j16097537425459_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Cert.KernelIdeal Cert.KernelIdeal.Gen Cert.KernelIdeal.Fr
open Idealize.ShloMosaic.Pipeline (Dat)
open scoped BigOperators

namespace Val01

theorem mm0_lhs_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem mm0_lhs_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem mm0_rhs_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem mm0_rhs_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

theorem pay0_apply (x0 : Vec Ideal S10000x128 .f32) (x1 : Vec Ideal S128x64 .f32) (p : Fin 10000) (q : Fin 64) :
    k0_pay1 x0 x1 (ix2 p q) = ∑ k : Fin 128, x0 (ix2 p k) * x1 (ix2 k q) := by
  unfold k0_pay1
  rw [truncf_apply]
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact mm0_lhs_0 _ _
    | ⟨1, _⟩ => exact (mm0_lhs_1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (mm0_rhs_0 _ _).trans hk
    | ⟨1, _⟩ => exact mm0_rhs_1 _ _)
  rw [el, er]
  rfl

theorem mm1_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem mm1_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem mm1_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem mm1_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem pay1_apply (x0 : Vec Ideal S5000x64 .bf16) (x3 : Vec Ideal S5000x64 .f32) (x5 : Vec Ideal S5000x1 .f32)
    (x10 : Vec Ideal S1x64 .f32) (x17 : Vec Ideal S64x64 .f32) (p : Fin 5000) (q : Fin 64) :
    k1_pay1 x0 x3 x5 x10 x17 (ix2 p q)
      = ∑ k : Fin 64, max (x3 (ix2 p k) + x0 (ix2 p k) * x5 (ix2 p (0 : Fin 1)) + x10 (ix2 (0 : Fin 1) k)) Cert.Spec.zeroE * x17 (ix2 k q) := by
  unfold k1_pay1
  simp only [shapeCast_self]
  rw [truncf_apply]
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact mm1_lhs_0 _ _
    | ⟨1, _⟩ => exact (mm1_lhs_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (mm1_rhs_0 _ _).trans hk
    | ⟨1, _⟩ => exact mm1_rhs_1 _ _)
  rw [el, er]
  show max ((x3 (ix2 p k) + x0 (ix2 p k) * broadcastTo S5000x64 x5 broadcasts_S5000x1_S5000x64 (ix2 p k))
      + broadcastTo S5000x64 x10 broadcasts_S1x64_S5000x64 (ix2 p k)) Cert.Spec.zeroE * x17 (ix2 k q) = _
  rw [broadcastTo_a1_ab_apply x5 broadcasts_S5000x1_S5000x64 p k, broadcastTo_1b_ab_apply x10 broadcasts_S1x64_S5000x64 p k]

end Val01

open Val01

section Arrays
variable (V : (c : Dev nD) → (b : Ref sig .tc) → Buf (Elt Ideal) ((c : Thread nD τ).loc b))

namespace Val01
theorem hz2 : (![0, 0] : Fin 2 → Nat) = fun _ => 0 := funext fun a => by fin_cases a <;> rfl

end Val01

def G0 (c : Dev nD) : S100000x64.Idx → EReal := fun i =>
  Cert.Spec.mm (fun n k => (V c main_arg0 : Vec Ideal S100000x128 .f32) (ix2 n k))
    (fun k j => (V c main_arg3 : Vec Ideal S128x64 .f32) (ix2 k j)) (i 0) (i 1)

namespace Val01

theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem flushed0_eq (c : Dev nD) (t : Fin cfg0.N) :
    (dat0 (F := Ideal) V c).flushed 2 t = ((cfg0.win 2).blk t).view.read (Elt Ideal) (G0 V c) := by
  show (cfg0.win 2).cut (grid0.coords t) ((dat0 (F := Ideal) V c).after 2 t) = _
  rw [after0_2]
  unfold out0_2
  rw [View.canon_unit_zero hz2]
  simp only [View.ld_unit_zero (S := S10000x128) hz2, View.ld_unit_zero (S := S128x64) hz2]
  obtain ⟨e0, e1, e2, e3, e4, e5⟩ := idx0 t
  funext j
  obtain ⟨p, q, rfl⟩ : ∃ (p : Fin 10000) (q : Fin 64), j = ix2 p q := ⟨j 0, j 1, eq_ix2 j⟩
  show k0_pay1 (iblk0 V c 0 t) (iblk0 V c 1 t) (ix2 p q) = G0 V c (((cfg0.win 2).blk t).view.emb (ix2 p q))
  refine (pay0_apply (iblk0 V c 0 t) (iblk0 V c 1 t) p q).trans ?_
  unfold G0 Cert.Spec.mm
  refine Finset.sum_congr rfl fun k _ => ?_
  congr 1
  · show V c main_arg0 (((cfg0.win 0).blk t).view.emb (ix2 p k)) = V c main_arg0 (ix2 (((cfg0.win 2).blk t).view.emb (ix2 p q) 0) k)
    congr 1; funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  · show V c main_arg3 (((cfg0.win 1).blk t).view.emb (ix2 k q)) = V c main_arg3 (ix2 k (((cfg0.win 2).blk t).view.emb (ix2 p q) 1))
    congr 1; funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega

theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v33).slice (win0_2.rect t)).set ↔ _
  rw [View.set_slice_whole, Rect.mem_set_unit]
  exact Iff.rfl

theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨e0, e1, e2, e3, e4, e5⟩ := idx0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

end Val01

theorem final0 (c : Dev nD) : (dat0 (F := Ideal) V c).arrAt 2 cfg0.N = G0 V c :=
  (dat0 (F := Ideal) V c).arrAt_eq_of_cover 2 (G0 V c) (fun t _ => flushed0_eq V c t) cover0

theorem arr0 (c : Dev nD) (n : Fin 100000) (j : Fin 64) :
    ((dat0 (F := Ideal) V c).arrAt 2 cfg0.N : Vec Ideal S100000x64 .bf16) (ix2 n j)
      = Cert.Spec.mm (fun n k => (V c main_arg0 : Vec Ideal S100000x128 .f32) (ix2 n k))
          (fun k j => (V c main_arg3 : Vec Ideal S128x64 .f32) (ix2 k j)) n j :=
  congrFun (final0 V c) (ix2 n j)

def G1 (c : Dev nD) : S100000x64.Idx → EReal := fun i =>
  Cert.Spec.mm (Cert.Spec.combine (fun n k => (V c main_v46 : Vec Ideal S100000x64 .f32) (ix2 n k))
      (fun n k => (V c main_v33 : Vec Ideal S100000x64 .bf16) (ix2 n k))
      (fun n => (V c main_v13 : Vec Ideal S100000x1 .f32) (ix2 n 0))
      (fun k => (V c main_v30 : Vec Ideal S1x64 .f32) (ix2 0 k)))
    (fun k j => (V c main_arg5 : Vec Ideal S64x64 .f32) (ix2 k j)) (i 0) (i 1)

namespace Val01

theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  unfold out1_5
  rw [View.canon_unit_zero hz2]
  simp only [View.ld_unit_zero (S := S5000x64) hz2, View.ld_unit_zero (S := S5000x1) hz2, View.ld_unit_zero (S := S1x64) hz2,
    View.ld_unit_zero (S := S64x64) hz2]
  obtain ⟨a0, a1, b0, b1, d0, d1, s0, s1, w0, w1, o0, o1⟩ := idx1 t
  funext j
  obtain ⟨p, q, rfl⟩ : ∃ (p : Fin 5000) (q : Fin 64), j = ix2 p q := ⟨j 0, j 1, eq_ix2 j⟩
  show k1_pay1 (iblk1 V c 1 t) (iblk1 V c 0 t) (iblk1 V c 2 t) (iblk1 V c 3 t) (iblk1 V c 4 t) (ix2 p q)
    = G1 V c (((cfg1.win 5).blk t).view.emb (ix2 p q))
  refine (pay1_apply (iblk1 V c 1 t) (iblk1 V c 0 t) (iblk1 V c 2 t) (iblk1 V c 3 t) (iblk1 V c 4 t) p q).trans ?_
  unfold G1 Cert.Spec.mm Cert.Spec.combine
  refine Finset.sum_congr rfl fun k _ => ?_
  have hag : (iblk1 V c 0 t : Vec Ideal S5000x64 .f32) (ix2 p k)
      = (V c main_v46 : Vec Ideal S100000x64 .f32) (ix2 (((cfg1.win 5).blk t).view.emb (ix2 p q) 0) k) := by
    show V c main_v46 (((cfg1.win 0).blk t).view.emb (ix2 p k)) = _
    congr 1; funext a; apply Fin.ext
    match a with
    | ⟨0, _⟩ => show win1_0.index t (0 : Fin 2) * 5000 + 1 * p.val = win1_5.index t (0 : Fin 2) * 5000 + 1 * p.val; omega
    | ⟨1, _⟩ => show win1_0.index t (1 : Fin 2) * 64 + 1 * k.val = k.val; omega
  have hh : (iblk1 V c 1 t : Vec Ideal S5000x64 .bf16) (ix2 p k)
      = (V c main_v33 : Vec Ideal S100000x64 .bf16) (ix2 (((cfg1.win 5).blk t).view.emb (ix2 p q) 0) k) := by
    show V c main_v33 (((cfg1.win 1).blk t).view.emb (ix2 p k)) = _
    congr 1; funext a; apply Fin.ext
    match a with
    | ⟨0, _⟩ => show win1_1.index t (0 : Fin 2) * 5000 + 1 * p.val = win1_5.index t (0 : Fin 2) * 5000 + 1 * p.val; omega
    | ⟨1, _⟩ => show win1_1.index t (1 : Fin 2) * 64 + 1 * k.val = k.val; omega
  have hd : (iblk1 V c 2 t : Vec Ideal S5000x1 .f32) (ix2 p (0 : Fin 1))
      = (V c main_v13 : Vec Ideal S100000x1 .f32) (ix2 (((cfg1.win 5).blk t).view.emb (ix2 p q) 0) 0) := by
    show V c main_v13 (((cfg1.win 2).blk t).view.emb (ix2 p (0 : Fin 1))) = _
    congr 1; funext a; apply Fin.ext
    match a with
    | ⟨0, _⟩ => show win1_2.index t (0 : Fin 2) * 5000 + 1 * p.val = win1_5.index t (0 : Fin 2) * 5000 + 1 * p.val; omega
    | ⟨1, _⟩ => show win1_2.index t (1 : Fin 2) * 1 + 1 * 0 = 0; omega
  have hb : (iblk1 V c 3 t : Vec Ideal S1x64 .f32) (ix2 (0 : Fin 1) k)
      = (V c main_v30 : Vec Ideal S1x64 .f32) (ix2 0 k) := by
    show V c main_v30 (((cfg1.win 3).blk t).view.emb (ix2 (0 : Fin 1) k)) = _
    congr 1; funext a; apply Fin.ext
    match a with
    | ⟨0, _⟩ => show win1_3.index t (0 : Fin 2) * 1 + 1 * 0 = 0; omega
    | ⟨1, _⟩ => show win1_3.index t (1 : Fin 2) * 64 + 1 * k.val = k.val; omega
  have hw : (iblk1 V c 4 t : Vec Ideal S64x64 .f32) (ix2 k q)
      = (V c main_arg5 : Vec Ideal S64x64 .f32) (ix2 k (((cfg1.win 5).blk t).view.emb (ix2 p q) 1)) := by
    show V c main_arg5 (((cfg1.win 4).blk t).view.emb (ix2 k q)) = _
    congr 1; funext a; apply Fin.ext
    match a with
    | ⟨0, _⟩ => show win1_4.index t (0 : Fin 2) * 64 + 1 * k.val = k.val; omega
    | ⟨1, _⟩ => show win1_4.index t (1 : Fin 2) * 64 + 1 * q.val = win1_5.index t (1 : Fin 2) * 64 + 1 * q.val; omega
  exact congrArg₂ (· * ·) (congrArg (max · Cert.Spec.zeroE) (congrArg₂ (· + ·) (congrArg₂ (· + ·) hag (congrArg₂ (· * ·) hh hd)) hb)) hw

theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v47).slice (win1_5.rect t)).set ↔ _
  rw [View.set_slice_whole, Rect.mem_set_unit]
  exact Iff.rfl

theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨a0, a1, b0, b1, d0, d1, s0, s1, w0, w1, o0, o1⟩ := idx1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

end Val01

theorem final1 (c : Dev nD) : (dat1 (F := Ideal) V c).arrAt 5 cfg1.N = G1 V c :=
  (dat1 (F := Ideal) V c).arrAt_eq_of_cover 5 (G1 V c) (fun t _ => flushed1_eq V c t) cover1

theorem arr1 (c : Dev nD) (n : Fin 100000) (j : Fin 64) :
    ((dat1 (F := Ideal) V c).arrAt 5 cfg1.N : Vec Ideal S100000x64 .bf16) (ix2 n j)
      = Cert.Spec.mm (Cert.Spec.combine (fun n k => (V c main_v46 : Vec Ideal S100000x64 .f32) (ix2 n k))
            (fun n k => (V c main_v33 : Vec Ideal S100000x64 .bf16) (ix2 n k))
            (fun n => (V c main_v13 : Vec Ideal S100000x1 .f32) (ix2 n 0))
            (fun k => (V c main_v30 : Vec Ideal S1x64 .f32) (ix2 0 k)))
          (fun k j => (V c main_arg5 : Vec Ideal S64x64 .f32) (ix2 k j)) n j :=
  congrFun (final1 V c) (ix2 n j)

end Arrays

end Cert.KernelIdeal.Val

end
-- ==== Proof.Val.Acc2.lean ====
import proofs.«420834_j16097537425459_2_alg».proof.Proof.LibCols
import proofs.«420834_j16097537425459_2_alg».proof.Proof.KI.R2Defs
import proofs.«420834_j16097537425459_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.ShloMosaic.ValueIdx Cert.KernelIdeal Cert.KernelIdeal.Gen Cert.KernelIdeal.Fr
open scoped BigOperators

namespace Cert.KernelIdeal.Val.Acc2

theorem toInt_lane (g : Fin 64) : (BitVec.ofNat 32 g.val).toInt = (g.val : ℤ) :=
  (by decide : ∀ g : Fin 64, (BitVec.ofNat 32 g.val).toInt = (g.val : ℤ)) g

theorem word_eq_lane_iff (w : BitVec 32) (g : Fin 64) : w = BitVec.ofNat 32 g.val ↔ w.toInt = (g.val : ℤ) := by
  constructor
  · rintro rfl; exact toInt_lane g
  · intro h; exact BitVec.eq_of_toInt_eq (h.trans (toInt_lane g).symm)

theorem onehot_word (w : BitVec 32) (g : Fin 64) :
    FloatOps.sitofp (F := Ideal) .f32 ((IntOp.cmpi .eq w (BitVec.ofNat 32 g.val)).setWidth 32)
      = if w.toInt = (g.val : ℤ) then (1 : EReal) else 0 := by
  by_cases h : w = BitVec.ofNat 32 g.val
  · rw [if_pos ((word_eq_lane_iff w g).mp h)]
    have e : IntOp.cmpi .eq w (BitVec.ofNat 32 g.val) = 1#1 := by
      show BitVec.ofBool (w == BitVec.ofNat 32 g.val) = 1#1
      rw [h, beq_self_eq_true]; rfl
    rw [e]
    show (((((1#1 : BitVec 1).setWidth 32).toInt : ℤ) : ℝ) : EReal) = 1
    have : ((1#1 : BitVec 1).setWidth 32).toInt = 1 := by decide
    rw [this]; simp
  · rw [if_neg (fun h' => h ((word_eq_lane_iff w g).mpr h'))]
    have e : IntOp.cmpi .eq w (BitVec.ofNat 32 g.val) = 0#1 := by
      show BitVec.ofBool (w == BitVec.ofNat 32 g.val) = 0#1
      rw [beq_false_of_ne h]; rfl
    rw [e]
    show (((((0#1 : BitVec 1).setWidth 32).toInt : ℤ) : ℝ) : EReal) = 0
    have : ((0#1 : BitVec 1).setWidth 32).toInt = 0 := by decide
    rw [this]; simp

theorem onehot_apply (x4 : Vec Ideal S5000x1 .i32) (r : Fin 5000) (g : Fin 64) :
    k2_pay6 (F := Ideal) x4 (ix2 r g) = if (x4 (ix2 r (0 : Fin 1))).toInt = (g.val : ℤ) then (1 : EReal) else 0 := by
  unfold k2_pay6 k2_pay5
  try dsimp only
  rw [sitofp_apply, extui_apply]
  show FloatOps.sitofp (F := Ideal) .f32 ((IntOp.cmpi .eq (broadcastTo S5000x64 (shapeCast S5000x1 x4 shapeCasts_S5000x1_S5000x1) broadcasts_S5000x1_S5000x64 (ix2 r g))
      (iota .tc S5000x64 32 [1] iota_S5000x64_d1_w32 (ix2 r g))).setWidth 32) = _
  rw [shapeCast_self, broadcastTo_a1_ab_apply, iota_single_apply]
  exact onehot_word _ g

theorem combined_apply (x0 : Vec Ideal S5000x64 .f32) (x1 : Vec Ideal S5000x64 .bf16) (x2 : Vec Ideal S5000x1 .f32)
    (x3 : Vec Ideal S1x64 .f32) (r : Fin 5000) (k : Fin 64) :
    maximumf (addf (addf (shapeCast S5000x64 x0 shapeCasts_S5000x64_S5000x64)
        (mulf (extf .f32 (shapeCast S5000x64 x1 shapeCasts_S5000x64_S5000x64) bitsLt_bf16_f32)
          (broadcastTo S5000x64 (shapeCast S5000x1 x2 shapeCasts_S5000x1_S5000x1) broadcasts_S5000x1_S5000x64)))
        (broadcastTo S5000x64 (shapeCast S1x64 x3 shapeCasts_S1x64_S1x64) broadcasts_S1x64_S5000x64))
      (broadcast S5000x64 (Scalar.ofBits (F := Ideal) .f32 0x00000000#32)) (ix2 r k)
      = max (x0 (ix2 r k) + x1 (ix2 r k) * x2 (ix2 r (0 : Fin 1)) + x3 (ix2 (0 : Fin 1) k)) Cert.Spec.zeroE := by
  rw [maximumf_apply, addf_apply, addf_apply, mulf_apply, extf_apply, broadcast_apply]
  rw [shapeCast_self, shapeCast_self, shapeCast_self, shapeCast_self, broadcastTo_a1_ab_apply, broadcastTo_1b_ab_apply]
  rfl

theorem lhs_rows_0 (i : S64x64.Idx) (q : dot_S5000x64_S5000x64_S64x64_0_0_1_1_n_n.contr.Idx) :
    (dot_S5000x64_S5000x64_S64x64_0_0_1_1_n_n.lhsIdx i q 0).val = (q ⟨0, by decide⟩).val :=
  dot_S5000x64_S5000x64_S64x64_0_0_1_1_n_n.lhsIdx_val_of_single rfl i q
theorem lhs_rows_1 (i : S64x64.Idx) (q : dot_S5000x64_S5000x64_S64x64_0_0_1_1_n_n.contr.Idx) :
    (dot_S5000x64_S5000x64_S64x64_0_0_1_1_n_n.lhsIdx i q 1).val = (i 0).val := by
  unfold DotDims.lhsIdx
  rw [dif_neg (show ¬(1 : Fin S5000x64.rank) ∈ dot_S5000x64_S5000x64_S64x64_0_0_1_1_n_n.lhsBatch by decide), dif_pos (show (1 : Fin S5000x64.rank) ∈ dot_S5000x64_S5000x64_S64x64_0_0_1_1_n_n.lhsNonContracting by decide)]
  rfl
theorem rhs_rows_0 (i : S64x64.Idx) (q : dot_S5000x64_S5000x64_S64x64_0_0_1_1_n_n.contr.Idx) :
    (dot_S5000x64_S5000x64_S64x64_0_0_1_1_n_n.rhsIdx i q 0).val = (q ⟨0, by decide⟩).val :=
  dot_S5000x64_S5000x64_S64x64_0_0_1_1_n_n.rhsIdx_val_of_single rfl i q
theorem rhs_rows_1 (i : S64x64.Idx) (q : dot_S5000x64_S5000x64_S64x64_0_0_1_1_n_n.contr.Idx) :
    (dot_S5000x64_S5000x64_S64x64_0_0_1_1_n_n.rhsIdx i q 1).val = (i 1).val := by
  unfold DotDims.rhsIdx
  rw [dif_neg (show ¬(1 : Fin S5000x64.rank) ∈ dot_S5000x64_S5000x64_S64x64_0_0_1_1_n_n.rhsBatch by decide), dif_pos (show (1 : Fin S5000x64.rank) ∈ dot_S5000x64_S5000x64_S64x64_0_0_1_1_n_n.rhsNonContracting by decide)]
  rfl

theorem matmul_rows_apply (a b : FVec Ideal S5000x64 .bf16) (g k : Fin 64) :
    matmul dot_S5000x64_S5000x64_S64x64_0_0_1_1_n_n none a b (constant (F := Ideal) S64x64 .f32 0x00000000#32) (ix2 g k)
      = ∑ r : Fin 5000, a (ix2 r g) * b (ix2 r k) := by
  simp only [matmul]
  rw [Ideal.matmul_constant_zero_apply, ← Equiv.sum_comp (ValueIdx.contrEquiv1 dot_S5000x64_S5000x64_S64x64_0_0_1_1_n_n 5000 rfl rfl).symm]
  refine Finset.sum_congr rfl fun r _ => ?_
  have hr := ValueIdx.contrEquiv1_symm_val dot_S5000x64_S5000x64_S64x64_0_0_1_1_n_n 5000 rfl rfl r
  have el : dot_S5000x64_S5000x64_S64x64_0_0_1_1_n_n.lhsIdx (ix2 g k) ((ValueIdx.contrEquiv1 dot_S5000x64_S5000x64_S64x64_0_0_1_1_n_n 5000 rfl rfl).symm r) = ix2 r g := funext fun ax => Fin.ext (by
    match ax with
    | ⟨0, _⟩ => exact (lhs_rows_0 _ _).trans hr
    | ⟨1, _⟩ => exact lhs_rows_1 _ _)
  have er : dot_S5000x64_S5000x64_S64x64_0_0_1_1_n_n.rhsIdx (ix2 g k) ((ValueIdx.contrEquiv1 dot_S5000x64_S5000x64_S64x64_0_0_1_1_n_n 5000 rfl rfl).symm r) = ix2 r k := funext fun ax => Fin.ext (by
    match ax with
    | ⟨0, _⟩ => exact (rhs_rows_0 _ _).trans hr
    | ⟨1, _⟩ => exact rhs_rows_1 _ _)
  rw [el, er]

theorem sumsNext_apply (x0 : Vec Ideal S5000x64 .f32) (x1 : Vec Ideal S5000x64 .bf16) (x2 : Vec Ideal S5000x1 .f32)
    (x3 : Vec Ideal S1x64 .f32) (x4 : Vec Ideal S5000x1 .i32) (prev : Vec Ideal S64x64 .f32) (g k : Fin 64) :
    sumsNext (F := Ideal) x0 x1 x2 x3 x4 prev (ix2 g k)
      = prev (ix2 g k) + ∑ r : Fin 5000, (if (x4 (ix2 r (0 : Fin 1))).toInt = (g.val : ℤ) then (1 : EReal) else 0)
          * max (x0 (ix2 r k) + x1 (ix2 r k) * x2 (ix2 r (0 : Fin 1)) + x3 (ix2 (0 : Fin 1) k)) Cert.Spec.zeroE := by
  unfold sumsNext k2_pay7
  try dsimp only
  rw [shapeCast_self, addf_apply, matmul_rows_apply]
  refine congrArg (prev (ix2 g k) + ·) (Finset.sum_congr rfl fun r _ => ?_)
  rw [truncf_apply, truncf_apply, combined_apply]
  exact congrArg (· * _) (onehot_apply x4 r g)

theorem cntsNext_apply (x4 : Vec Ideal S5000x1 .i32) (prev : Vec Ideal S1x64 .f32) (g : Fin 64) :
    cntsNext (F := Ideal) x4 prev (ix2 (0 : Fin 1) g)
      = prev (ix2 (0 : Fin 1) g) + ∑ r : Fin 5000, (if (x4 (ix2 r (0 : Fin 1))).toInt = (g.val : ℤ) then (1 : EReal) else 0) := by
  unfold cntsNext k2_pay1
  try dsimp only
  rw [shapeCast_self, addf_apply, shapeCast_a_1a_apply]
  refine congrArg (prev (ix2 (0 : Fin 1) g) + ·) ?_
  refine (Ideal.multiReduction_add_single (k2_pay6 (F := Ideal) x4) 0x00000000#32 reduces_S5000x64_S64 (.inl rfl) rfl (ix1 g)).trans ?_
  refine Finset.sum_congr rfl fun r _ => ?_
  have e : reduces_S5000x64_S64.lift (ix1 g) r = ix2 r g := funext fun ax => Fin.ext (by
    match ax with
    | ⟨0, _⟩ => rfl
    | ⟨1, _⟩ => rfl)
  rw [e]
  exact onehot_apply x4 r g

theorem zeros_sums_apply (g k : Fin 64) : (k2_pay3 (F := Ideal)) (ix2 g k) = 0 := by
  unfold k2_pay3
  try dsimp only
  rw [shapeCast_self, broadcast_apply]
  exact Ideal.ofBits_zero_f32
theorem zeros_cnts_apply (g : Fin 64) : (k2_pay4 (F := Ideal)) (ix2 (0 : Fin 1) g) = 0 := by
  unfold k2_pay4
  try dsimp only
  rw [shapeCast_self, broadcast_apply]
  exact Ideal.ofBits_zero_f32

section Blocks
variable (V : (c : Dev nD) → (b : Ref sig .tc) → Buf (Elt Ideal) ((c : Thread nD τ).loc b))

theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

abbrev blkAgg (c : Dev nD) (n : ℕ) (hn : n < cfg2.N) : Vec Ideal S5000x64 .f32 := iblk2 (F := Ideal) V c 0 ⟨n, hn⟩
abbrev blkProj (c : Dev nD) (n : ℕ) (hn : n < cfg2.N) : Vec Ideal S5000x64 .bf16 := iblk2 (F := Ideal) V c 1 ⟨n, hn⟩
abbrev blkDeg (c : Dev nD) (n : ℕ) (hn : n < cfg2.N) : Vec Ideal S5000x1 .f32 := iblk2 (F := Ideal) V c 2 ⟨n, hn⟩
abbrev blkBias (c : Dev nD) (n : ℕ) (hn : n < cfg2.N) : Vec Ideal S1x64 .f32 := iblk2 (F := Ideal) V c 3 ⟨n, hn⟩
abbrev blkGraph (c : Dev nD) (n : ℕ) (hn : n < cfg2.N) : Vec Ideal S5000x1 .i32 := iblk2 (F := Ideal) V c 4 ⟨n, hn⟩

theorem lt_twenty {n : ℕ} (hn : n < cfg2.N) : n < 20 := Nat.lt_of_lt_of_eq hn N_2

theorem blk_agg_apply (c : Dev nD) (n : ℕ) (hn : n < cfg2.N) (r : Fin 5000) (k : Fin 64) (hr : 5000 * n + r.val < 100000) :
    blkAgg V c n hn (ix2 r k)
      = (V c main_v60 : Vec Ideal S100000x64 .f32) (ix2 ⟨5000 * n + r.val, hr⟩ k) := by
  obtain ⟨e0, e1, -⟩ := idx_facts2 ⟨n, hn⟩
  have e0' : win2_0.index ⟨n, hn⟩ (0 : Fin 2) = n := e0
  show (V c main_v60 : Vec Ideal S100000x64 .f32) (((cfg2.win 0).blk ⟨n, hn⟩).view.emb (ix2 r k)) = _
  refine congrArg _ (funext fun a => Fin.ext ?_)
  match a with
  | ⟨0, _⟩ => show win2_0.index ⟨n, hn⟩ (0 : Fin 2) * 5000 + 1 * r.val = 5000 * n + r.val; omega
  | ⟨1, _⟩ => show win2_0.index ⟨n, hn⟩ (1 : Fin 2) * 64 + 1 * k.val = k.val; omega

theorem blk_proj_apply (c : Dev nD) (n : ℕ) (hn : n < cfg2.N) (r : Fin 5000) (k : Fin 64) (hr : 5000 * n + r.val < 100000) :
    blkProj V c n hn (ix2 r k)
      = (V c main_v47 : Vec Ideal S100000x64 .bf16) (ix2 ⟨5000 * n + r.val, hr⟩ k) := by
  obtain ⟨-, -, e0, e1, -⟩ := idx_facts2 ⟨n, hn⟩
  have e0' : win2_1.index ⟨n, hn⟩ (0 : Fin 2) = n := e0
  show (V c main_v47 : Vec Ideal S100000x64 .bf16) (((cfg2.win 1).blk ⟨n, hn⟩).view.emb (ix2 r k)) = _
  refine congrArg _ (funext fun a => Fin.ext ?_)
  match a with
  | ⟨0, _⟩ => show win2_1.index ⟨n, hn⟩ (0 : Fin 2) * 5000 + 1 * r.val = 5000 * n + r.val; omega
  | ⟨1, _⟩ => show win2_1.index ⟨n, hn⟩ (1 : Fin 2) * 64 + 1 * k.val = k.val; omega

theorem blk_deg_apply (c : Dev nD) (n : ℕ) (hn : n < cfg2.N) (r : Fin 5000) (hr : 5000 * n + r.val < 100000) :
    blkDeg V c n hn (ix2 r (0 : Fin 1))
      = (V c main_v13 : Vec Ideal S100000x1 .f32) (ix2 ⟨5000 * n + r.val, hr⟩ (0 : Fin 1)) := by
  obtain ⟨-, -, -, -, e0, e1, -⟩ := idx_facts2 ⟨n, hn⟩
  have e0' : win2_2.index ⟨n, hn⟩ (0 : Fin 2) = n := e0
  show (V c main_v13 : Vec Ideal S100000x1 .f32) (((cfg2.win 2).blk ⟨n, hn⟩).view.emb (ix2 r (0 : Fin 1))) = _
  refine congrArg _ (funext fun a => Fin.ext ?_)
  match a with
  | ⟨0, _⟩ => show win2_2.index ⟨n, hn⟩ (0 : Fin 2) * 5000 + 1 * r.val = 5000 * n + r.val; omega
  | ⟨1, _⟩ => show win2_2.index ⟨n, hn⟩ (1 : Fin 2) * 1 + 1 * 0 = 0; omega

theorem blk_bias_apply (c : Dev nD) (n : ℕ) (hn : n < cfg2.N) (k : Fin 64) :
    blkBias V c n hn (ix2 (0 : Fin 1) k)
      = (V c main_v31 : Vec Ideal S1x64 .f32) (ix2 (0 : Fin 1) k) := by
  obtain ⟨-, -, -, -, -, -, e0, e1, -⟩ := idx_facts2 ⟨n, hn⟩
  show (V c main_v31 : Vec Ideal S1x64 .f32) (((cfg2.win 3).blk ⟨n, hn⟩).view.emb (ix2 (0 : Fin 1) k)) = _
  refine congrArg _ (funext fun a => Fin.ext ?_)
  match a with
  | ⟨0, _⟩ => show win2_3.index ⟨n, hn⟩ (0 : Fin 2) * 1 + 1 * 0 = 0; omega
  | ⟨1, _⟩ => show win2_3.index ⟨n, hn⟩ (1 : Fin 2) * 64 + 1 * k.val = k.val; omega

theorem blk_graph_apply (c : Dev nD) (n : ℕ) (hn : n < cfg2.N) (r : Fin 5000) (hr : 5000 * n + r.val < 100000) :
    blkGraph V c n hn (ix2 r (0 : Fin 1))
      = (V c main_v4 : Vec Ideal S100000x1 .i32) (ix2 ⟨5000 * n + r.val, hr⟩ (0 : Fin 1)) := by
  obtain ⟨-, -, -, -, -, -, -, -, e0, e1⟩ := idx_facts2 ⟨n, hn⟩
  have e0' : win2_4.index ⟨n, hn⟩ (0 : Fin 2) = n := e0
  show (V c main_v4 : Vec Ideal S100000x1 .i32) (((cfg2.win 4).blk ⟨n, hn⟩).view.emb (ix2 r (0 : Fin 1))) = _
  refine congrArg _ (funext fun a => Fin.ext ?_)
  match a with
  | ⟨0, _⟩ => show win2_4.index ⟨n, hn⟩ (0 : Fin 2) * 5000 + 1 * r.val = 5000 * n + r.val; omega
  | ⟨1, _⟩ => show win2_4.index ⟨n, hn⟩ (1 : Fin 2) * 1 + 1 * 0 = 0; omega

abbrev AG (c : Dev nD) : Fin 100000 → Fin 64 → EReal := fun n k => (V c main_v60 : Vec Ideal S100000x64 .f32) (ix2 n k)
abbrev PH (c : Dev nD) : Fin 100000 → Fin 64 → EReal := fun n k => (V c main_v47 : Vec Ideal S100000x64 .bf16) (ix2 n k)
abbrev D2 (c : Dev nD) : Fin 100000 → EReal := fun n => (V c main_v13 : Vec Ideal S100000x1 .f32) (ix2 n (0 : Fin 1))
abbrev BI (c : Dev nD) : Fin 64 → EReal := fun k => (V c main_v31 : Vec Ideal S1x64 .f32) (ix2 (0 : Fin 1) k)
abbrev GN (c : Dev nD) : Fin 100000 → ℤ := fun n => ((V c main_v4 : Vec Ideal S100000x1 .i32) (ix2 n (0 : Fin 1))).toInt

def rowTerm (c : Dev nD) (g k : Fin 64) (m : ℕ) : EReal :=
  if h : m < 100000 then
    (if GN V c ⟨m, h⟩ = (g.val : ℤ) then (1 : EReal) else 0) * Cert.Spec.combine (AG V c) (PH V c) (D2 V c) (BI V c) ⟨m, h⟩ k
  else 0

def cntTerm (c : Dev nD) (g : Fin 64) (m : ℕ) : EReal :=
  if h : m < 100000 then (if GN V c ⟨m, h⟩ = (g.val : ℤ) then (1 : EReal) else 0) else 0

theorem block_rowTerm (c : Dev nD) (g k : Fin 64) (n : ℕ) (hn : n < cfg2.N) (r : Fin 5000) :
    (if (blkGraph V c n hn (ix2 r (0 : Fin 1))).toInt = (g.val : ℤ) then (1 : EReal) else 0)
      * max (blkAgg V c n hn (ix2 r k)
          + blkProj V c n hn (ix2 r k)
            * blkDeg V c n hn (ix2 r (0 : Fin 1))
          + blkBias V c n hn (ix2 (0 : Fin 1) k)) Cert.Spec.zeroE
      = rowTerm V c g k (5000 * n + r.val) := by
  have hn' := lt_twenty hn
  have hr : 5000 * n + r.val < 100000 := by have := r.isLt; omega
  unfold rowTerm
  rw [dif_pos hr, blk_agg_apply V c n hn r k hr, blk_proj_apply V c n hn r k hr, blk_deg_apply V c n hn r hr,
    blk_bias_apply V c n hn k, blk_graph_apply V c n hn r hr]
  rfl

theorem block_cntTerm (c : Dev nD) (g : Fin 64) (n : ℕ) (hn : n < cfg2.N) (r : Fin 5000) :
    (if (blkGraph V c n hn (ix2 r (0 : Fin 1))).toInt = (g.val : ℤ) then (1 : EReal) else 0)
      = cntTerm V c g (5000 * n + r.val) := by
  have hn' := lt_twenty hn
  have hr : 5000 * n + r.val < 100000 := by have := r.isLt; omega
  unfold cntTerm
  rw [dif_pos hr, blk_graph_apply V c n hn r hr]

theorem sums_upto (c : Dev nD) (g k : Fin 64) : ∀ (n : ℕ) (hn : n < cfg2.N),
    ((accAt2 (F := Ideal) V c n hn).1 : Vec Ideal S64x64 .f32) (ix2 g k)
      = ∑ m ∈ Finset.range (5000 * (n + 1)), rowTerm V c g k m
  | 0, hn => by
    show sumsNext (F := Ideal) (iblk2 V c 0 ⟨0, hn⟩) (iblk2 V c 1 ⟨0, hn⟩) (iblk2 V c 2 ⟨0, hn⟩) (iblk2 V c 3 ⟨0, hn⟩)
      (iblk2 V c 4 ⟨0, hn⟩) (k2_pay3 (F := Ideal)) (ix2 g k) = ∑ m ∈ Finset.range 5000, rowTerm V c g k m
    refine (sumsNext_apply _ _ _ _ _ _ g k).trans ?_
    rw [zeros_sums_apply, zero_add, Finset.sum_range]
    refine Finset.sum_congr rfl fun r _ => ?_
    exact (block_rowTerm V c g k 0 hn r).trans (by rw [Nat.mul_zero, Nat.zero_add])
  | n + 1, hn => by
    show sumsNext (F := Ideal) (iblk2 V c 0 ⟨n + 1, hn⟩) (iblk2 V c 1 ⟨n + 1, hn⟩) (iblk2 V c 2 ⟨n + 1, hn⟩) (iblk2 V c 3 ⟨n + 1, hn⟩)
      (iblk2 V c 4 ⟨n + 1, hn⟩) (accAt2 V c n (Nat.lt_of_succ_lt hn)).1 (ix2 g k) = _
    refine (sumsNext_apply _ _ _ _ _ _ g k).trans ?_
    rw [sums_upto c g k n (Nat.lt_of_succ_lt hn), show 5000 * (n + 1 + 1) = 5000 * (n + 1) + 5000 from by omega,
      Finset.sum_range_add, Finset.sum_range (fun x => rowTerm V c g k (5000 * (n + 1) + x))]
    refine congrArg (_ + ·) (Finset.sum_congr rfl fun r _ => ?_)
    exact block_rowTerm V c g k (n + 1) hn r

theorem cnts_upto (c : Dev nD) (g : Fin 64) : ∀ (n : ℕ) (hn : n < cfg2.N),
    ((accAt2 (F := Ideal) V c n hn).2 : Vec Ideal S1x64 .f32) (ix2 (0 : Fin 1) g)
      = ∑ m ∈ Finset.range (5000 * (n + 1)), cntTerm V c g m
  | 0, hn => by
    show cntsNext (F := Ideal) (iblk2 V c 4 ⟨0, hn⟩) (k2_pay4 (F := Ideal)) (ix2 (0 : Fin 1) g) = ∑ m ∈ Finset.range 5000, cntTerm V c g m
    refine (cntsNext_apply _ _ g).trans ?_
    rw [zeros_cnts_apply, zero_add, Finset.sum_range]
    refine Finset.sum_congr rfl fun r _ => ?_
    exact (block_cntTerm V c g 0 hn r).trans (by rw [Nat.mul_zero, Nat.zero_add])
  | n + 1, hn => by
    show cntsNext (F := Ideal) (iblk2 V c 4 ⟨n + 1, hn⟩) (accAt2 V c n (Nat.lt_of_succ_lt hn)).2 (ix2 (0 : Fin 1) g) = _
    refine (cntsNext_apply _ _ g).trans ?_
    rw [cnts_upto c g n (Nat.lt_of_succ_lt hn), show 5000 * (n + 1 + 1) = 5000 * (n + 1) + 5000 from by omega,
      Finset.sum_range_add, Finset.sum_range (fun x => cntTerm V c g (5000 * (n + 1) + x))]
    refine congrArg (_ + ·) (Finset.sum_congr rfl fun r _ => ?_)
    exact block_cntTerm V c g (n + 1) hn r

theorem oneE_eq : Cert.Spec.oneE = 1 := by
  show Ideal.ofBits .f32 0x3F800000#32 = 1
  simp [Ideal.ofBits, Ideal.ieee, -EReal.coe_mul]; norm_num

end Blocks

end Cert.KernelIdeal.Val.Acc2

namespace Cert.KernelIdeal.Val

open Acc2

variable (V : (c : Dev nD) → (b : Ref sig .tc) → Buf (Elt Ideal) ((c : Thread nD τ).loc b))

theorem acc_last (c : Dev nD) (h19 : 19 < cfg2.N) :
    (∀ (g k : Fin 64), ((accAt2 (F := Ideal) V c 19 h19).1 : Vec Ideal S64x64 .f32) (ix2 g k)
        = Cert.Spec.segSum (Acc2.GN V c) (Cert.Spec.combine (Acc2.AG V c) (Acc2.PH V c) (Acc2.D2 V c) (Acc2.BI V c)) g k)
    ∧ (∀ g : Fin 64, ((accAt2 (F := Ideal) V c 19 h19).2 : Vec Ideal S1x64 .f32) (ix2 (0 : Fin 1) g)
        = Cert.Spec.segCnt (Acc2.GN V c) g) := by
  refine ⟨fun g k => ?_, fun g => ?_⟩
  · rw [sums_upto V c g k 19 h19]
    show ∑ m ∈ Finset.range 100000, rowTerm V c g k m = _
    rw [Finset.sum_range]
    unfold Cert.Spec.segSum
    rw [Finset.sum_filter]
    refine Finset.sum_congr rfl fun m _ => ?_
    unfold rowTerm
    rw [dif_pos m.isLt]
    show (if Acc2.GN V c m = (g.val : ℤ) then (1 : EReal) else 0) * _ = _
    split
    · rw [one_mul]
    · rw [zero_mul]
  · rw [cnts_upto V c g 19 h19]
    show ∑ m ∈ Finset.range 100000, cntTerm V c g m = _
    rw [Finset.sum_range]
    unfold Cert.Spec.segCnt
    rw [Finset.sum_filter, oneE_eq]
    refine Finset.sum_congr rfl fun m _ => ?_
    unfold cntTerm
    rw [dif_pos m.isLt]

end Cert.KernelIdeal.Val

end
-- ==== Proof.Val.Out2.lean ====
import proofs.«420834_j16097537425459_2_alg».proof.Proof.LibCols
import proofs.«420834_j16097537425459_2_alg».proof.Proof.KI.R2Defs
import proofs.«420834_j16097537425459_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Cert.KernelIdeal Cert.KernelIdeal.Gen Cert.KernelIdeal.Fr

namespace Out2

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

def logitsV (x5 : Vec Ideal S64x10 .f32) (x6 : Vec Ideal S1x10 .f32) (sums : Vec Ideal S64x64 .f32)
    (cnts : Vec Ideal S1x64 .f32) : FVec Ideal S64x10 .f32 :=
  addf
    (matmul dot_S64x64_S64x10_S64x10_1_0_0_1_n_n none
      (truncf .bf16
        (divf sums
          (broadcastTo S64x64
            (maximumf (transpose S64x1 [1, 0] cnts transposes_S1x64_p1_0_S64x1)
              (broadcast S64x1 (Scalar.ofBits (F := Ideal) .f32 0x3F800000#32)))
            broadcasts_S64x1_S64x64))
        bitsLt_bf16_f32)
      (truncf .bf16 x5 bitsLt_bf16_f32) (constant (F := Ideal) S64x10 .f32 0x00000000#32))
    (broadcastTo S64x10 (shapeCast S1x10 x6 shapeCasts_S1x10_S1x10) broadcasts_S1x10_S64x10)

def rowMaxV (l : FVec Ideal S64x10 .f32) : FVec Ideal S64x10 .f32 :=
  broadcastTo S64x10
    (shapeCast S64x1 (multiReduction (F := Ideal) .maximumf [1] S64 l 0xFF800000#32 reduces_S64x10_S64 (.inl rfl) rfl)
      shapeCasts_S64_S64x1)
    broadcasts_S64x1_S64x10

def lsmV (l : FVec Ideal S64x10 .f32) : FVec Ideal S64x10 .f32 :=
  subf (subf l (rowMaxV l))
    (broadcastTo S64x10
      (log
        (shapeCast S64x1
          (multiReduction (F := Ideal) .add [1] S64 (exp (subf l (rowMaxV l))) 0x00000000#32 reduces_S64x10_S64 (.inl rfl) rfl)
          shapeCasts_S64_S64x1))
      broadcasts_S64x1_S64x10)

theorem out2_7_eq (x5 : Vec Ideal S64x10 .f32) (x6 : Vec Ideal S1x10 .f32) (sums : Vec Ideal S64x64 .f32)
    (cnts : Vec Ideal S1x64 .f32) : out2_7 (F := Ideal) x5 x6 sums cnts = lsmV (logitsV x5 x6 sums cnts) := rfl

theorem lift_row (g : Fin 64) (k : Fin 10) : reduces_S64x10_S64.lift (ix1 g) k = ix2 g k :=
  funext fun a => match a with | ⟨0, _⟩ => Fin.ext rfl | ⟨1, _⟩ => Fin.ext rfl

theorem rowMax_apply (l : FVec Ideal S64x10 .f32) (hφ : FKind.Formats .f32)
    (hacc : (0xFF800000#32 : BitVec 32) = FKind.maximumf.neutral .f32 hφ) (g : Fin 64) :
    multiReduction (F := Ideal) .maximumf [1] S64 l 0xFF800000#32 reduces_S64x10_S64 hφ hacc (ix1 g)
      = Cert.Spec.rowMax (fun g j => l (ix2 g j)) g := by
  refine (Ideal.multiReduction_maximumf_single l 0xFF800000#32 reduces_S64x10_S64 hφ hacc (ix1 g)).trans ?_
  show (Finset.univ : Finset (Fin 10)).fold max Cert.Spec.ninfE (fun k => l (reduces_S64x10_S64.lift (ix1 g) k))
    = (Finset.univ : Finset (Fin 10)).fold max Cert.Spec.ninfE (fun j => l (ix2 g j))
  exact congrArg (fun f => (Finset.univ : Finset (Fin 10)).fold max Cert.Spec.ninfE f)
    (funext fun k => congrArg l (lift_row g k))

theorem rowSum_apply (e : FVec Ideal S64x10 .f32) (hφ : FKind.Formats .f32)
    (hacc : (0x00000000#32 : BitVec 32) = FKind.add.neutral .f32 hφ) (g : Fin 64) :
    multiReduction (F := Ideal) .add [1] S64 e 0x00000000#32 reduces_S64x10_S64 hφ hacc (ix1 g)
      = ∑ k : Fin 10, e (ix2 g k) := by
  refine (Ideal.multiReduction_add_single e 0x00000000#32 reduces_S64x10_S64 hφ hacc (ix1 g)).trans ?_
  show ∑ k : Fin 10, e (reduces_S64x10_S64.lift (ix1 g) k) = _
  exact Finset.sum_congr rfl fun k _ => congrArg e (lift_row g k)

theorem rowMaxV_apply (l : FVec Ideal S64x10 .f32) (g : Fin 64) (j : Fin 10) :
    rowMaxV l (ix2 g j) = Cert.Spec.rowMax (fun g j => l (ix2 g j)) g := by
  unfold rowMaxV
  refine (broadcastTo_a1_ab_apply _ broadcasts_S64x1_S64x10 g j).trans ?_
  refine (shapeCast_a_a1_apply _ shapeCasts_S64_S64x1 g 0).trans ?_
  exact rowMax_apply l _ _ g

theorem lsmV_apply (l : FVec Ideal S64x10 .f32) (g : Fin 64) (j : Fin 10) :
    lsmV l (ix2 g j) = Cert.Spec.lsm (fun g j => l (ix2 g j)) g j := by
  unfold lsmV
  rw [subf_apply, subf_apply, rowMaxV_apply]
  unfold Cert.Spec.lsm
  refine congrArg (l (ix2 g j) - Cert.Spec.rowMax (fun g j => l (ix2 g j)) g - ·) ?_
  refine (broadcastTo_a1_ab_apply _ broadcasts_S64x1_S64x10 g j).trans ?_
  show Ideal.log (shapeCast S64x1 _ shapeCasts_S64_S64x1 (ix2 g 0)) = _
  refine congrArg Ideal.log ?_
  refine (shapeCast_a_a1_apply _ shapeCasts_S64_S64x1 g 0).trans ?_
  refine (rowSum_apply _ _ _ g).trans ?_
  refine Finset.sum_congr rfl fun k _ => ?_
  show Ideal.exp (subf l (rowMaxV l) (ix2 g k)) = _
  rw [subf_apply, rowMaxV_apply]

theorem lhs_cls_0 (i : S64x10.Idx) (q : dot_S64x64_S64x10_S64x10_1_0_0_1_n_n.contr.Idx) :
    (dot_S64x64_S64x10_S64x10_1_0_0_1_n_n.lhsIdx i q 0).val = (i 0).val := by
  unfold DotDims.lhsIdx
  rw [dif_neg (show ¬(0 : Fin S64x64.rank) ∈ dot_S64x64_S64x10_S64x10_1_0_0_1_n_n.lhsBatch by decide), dif_pos (show (0 : Fin S64x64.rank) ∈ dot_S64x64_S64x10_S64x10_1_0_0_1_n_n.lhsNonContracting by decide)]
  rfl
theorem lhs_cls_1 (i : S64x10.Idx) (q : dot_S64x64_S64x10_S64x10_1_0_0_1_n_n.contr.Idx) :
    (dot_S64x64_S64x10_S64x10_1_0_0_1_n_n.lhsIdx i q 1).val = (q ⟨0, by decide⟩).val :=
  dot_S64x64_S64x10_S64x10_1_0_0_1_n_n.lhsIdx_val_of_single rfl i q
theorem rhs_cls_0 (i : S64x10.Idx) (q : dot_S64x64_S64x10_S64x10_1_0_0_1_n_n.contr.Idx) :
    (dot_S64x64_S64x10_S64x10_1_0_0_1_n_n.rhsIdx i q 0).val = (q ⟨0, by decide⟩).val :=
  dot_S64x64_S64x10_S64x10_1_0_0_1_n_n.rhsIdx_val_of_single rfl i q
theorem rhs_cls_1 (i : S64x10.Idx) (q : dot_S64x64_S64x10_S64x10_1_0_0_1_n_n.contr.Idx) :
    (dot_S64x64_S64x10_S64x10_1_0_0_1_n_n.rhsIdx i q 1).val = (i 1).val := by
  unfold DotDims.rhsIdx
  rw [dif_neg (show ¬(1 : Fin S64x10.rank) ∈ dot_S64x64_S64x10_S64x10_1_0_0_1_n_n.rhsBatch by decide), dif_pos (show (1 : Fin S64x10.rank) ∈ dot_S64x64_S64x10_S64x10_1_0_0_1_n_n.rhsNonContracting by decide)]
  rfl

theorem matmul_cls_apply (p : FVec Ideal S64x64 .bf16) (w : FVec Ideal S64x10 .bf16) (g : Fin 64) (j : Fin 10) :
    matmul dot_S64x64_S64x10_S64x10_1_0_0_1_n_n none p w (constant (F := Ideal) S64x10 .f32 0x00000000#32) (ix2 g j)
      = ∑ k : Fin 64, p (ix2 g k) * w (ix2 k j) := by
  simp only [matmul]
  rw [Ideal.matmul_constant_zero_apply, ← Equiv.sum_comp (ValueIdx.contrEquiv1 dot_S64x64_S64x10_S64x10_1_0_0_1_n_n 64 rfl rfl).symm]
  refine Finset.sum_congr rfl fun k _ => ?_
  have hk := ValueIdx.contrEquiv1_symm_val dot_S64x64_S64x10_S64x10_1_0_0_1_n_n 64 rfl rfl k
  have el : dot_S64x64_S64x10_S64x10_1_0_0_1_n_n.lhsIdx (ix2 g j) ((ValueIdx.contrEquiv1 dot_S64x64_S64x10_S64x10_1_0_0_1_n_n 64 rfl rfl).symm k) = ix2 g k := funext fun a => Fin.ext (by
    match a with
    | ⟨0, _⟩ => exact lhs_cls_0 _ _
    | ⟨1, _⟩ => exact (lhs_cls_1 _ _).trans hk)
  have er : dot_S64x64_S64x10_S64x10_1_0_0_1_n_n.rhsIdx (ix2 g j) ((ValueIdx.contrEquiv1 dot_S64x64_S64x10_S64x10_1_0_0_1_n_n 64 rfl rfl).symm k) = ix2 k j := funext fun a => Fin.ext (by
    match a with
    | ⟨0, _⟩ => exact (rhs_cls_0 _ _).trans hk
    | ⟨1, _⟩ => exact rhs_cls_1 _ _)
  rw [el, er]

theorem mean_apply (sums : Vec Ideal S64x64 .f32) (cnts : Vec Ideal S1x64 .f32) (g k : Fin 64) :
    divf sums
        (broadcastTo S64x64
          (maximumf (transpose S64x1 [1, 0] cnts transposes_S1x64_p1_0_S64x1)
            (broadcast S64x1 (Scalar.ofBits (F := Ideal) .f32 0x3F800000#32)))
          broadcasts_S64x1_S64x64) (ix2 g k)
      = Cert.Spec.pooled (fun g k => sums (ix2 g k)) (fun g => cnts (ix2 0 g)) g k := by
  rw [divf_apply]
  unfold Cert.Spec.pooled
  refine congrArg (Ideal.div (sums (ix2 g k))) ?_
  refine (broadcastTo_a1_ab_apply _ broadcasts_S64x1_S64x64 g k).trans ?_
  rw [maximumf_apply, broadcast_apply]
  refine congrArg (max · Cert.Spec.oneE) ?_
  exact transpose_ix2_apply cnts transposes_S1x64_p1_0_S64x1 g 0

theorem logitsV_apply (x5 : Vec Ideal S64x10 .f32) (x6 : Vec Ideal S1x10 .f32) (sums : Vec Ideal S64x64 .f32)
    (cnts : Vec Ideal S1x64 .f32) (g : Fin 64) (j : Fin 10) :
    logitsV x5 x6 sums cnts (ix2 g j)
      = Cert.Spec.logits (Cert.Spec.pooled (fun g k => sums (ix2 g k)) (fun g => cnts (ix2 0 g)))
          (fun k j => x5 (ix2 k j)) (fun j => x6 (ix2 0 j)) g j := by
  unfold logitsV
  rw [addf_apply, matmul_cls_apply]
  unfold Cert.Spec.logits
  congr 1
  · refine Finset.sum_congr rfl fun k _ => ?_
    rw [truncf_apply, truncf_apply, mean_apply]
  · refine (broadcastTo_1b_ab_apply _ broadcasts_S1x10_S64x10 g j).trans ?_
    rw [shapeCast_self]

end Out2

theorem out2_7_apply (x5 : Vec Ideal S64x10 .f32) (x6 : Vec Ideal S1x10 .f32) (sums : Vec Ideal S64x64 .f32)
    (cnts : Vec Ideal S1x64 .f32) (g : Fin 64) (j : Fin 10) :
    out2_7 (F := Ideal) x5 x6 sums cnts (ix2 g j)
      = Cert.Spec.lsm (Cert.Spec.logits (Cert.Spec.pooled (fun g k => sums (ix2 g k)) (fun g => cnts (ix2 0 g)))
          (fun k j => x5 (ix2 k j)) (fun j => x6 (ix2 0 j))) g j := by
  rw [Out2.out2_7_eq, Out2.lsmV_apply]
  exact congrArg (fun l => Cert.Spec.lsm l g j)
    (funext fun g' => funext fun j' => Out2.logitsV_apply x5 x6 sums cnts g' j')

end Cert.KernelIdeal.Val

end
-- ==== Proof.Val.Arr2.lean ====
import proofs.«420834_j16097537425459_2_alg».proof.Proof.KI.R2Defs
import Idealize.ShloMosaic.Lib.Pipeline.Value
import Idealize.ShloMosaic.Lib.ValueLayout
import Idealize.ShloMosaic.PureOps.Ideal

set_option maxRecDepth 16384

noncomputable section

namespace Cert.KernelIdeal.Val

open Idealize.ShloMosaic Idealize.ShloMosaic.TcCoe Idealize.ShloMosaic.ValueIdx
open Idealize.ShloMosaic.Pipeline (Dat Cfg Window)
open Cert.KernelIdeal Cert.KernelIdeal.Gen Cert.KernelIdeal.Fr

variable (V : (c : Dev nD) → (b : Ref sig .tc) → Buf (Elt Ideal) ((c : Thread nD τ).loc b))

namespace Arr2

theorem idx_zero : ∀ t : Fin cfg2.N, win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

theorem iblk5 (c : Dev nD) (t : Fin cfg2.N) : iblk2 V c 5 t = (V c main_arg7 : Vec Ideal S64x10 .f32) := by
  unfold iblk2
  funext j
  show V c main_arg7 (((cfg2.win 5).blk t).view.emb j) = V c main_arg7 j
  congr 1
  obtain ⟨e0, e1, -, -, -, -⟩ := idx_zero t
  funext a; apply Fin.ext
  match a with
  | ⟨0, _⟩ => show win2_5.index t (0 : Fin 2) * 64 + 1 * (j 0).val = (j 0).val; omega
  | ⟨1, _⟩ => show win2_5.index t (1 : Fin 2) * 10 + 1 * (j 1).val = (j 1).val; omega

theorem iblk6 (c : Dev nD) (t : Fin cfg2.N) : iblk2 V c 6 t = (V c main_v32 : Vec Ideal S1x10 .f32) := by
  unfold iblk2
  funext j
  show V c main_v32 (((cfg2.win 6).blk t).view.emb j) = V c main_v32 j
  congr 1
  obtain ⟨-, -, e0, e1, -, -⟩ := idx_zero t
  funext a; apply Fin.ext
  match a with
  | ⟨0, _⟩ => show win2_6.index t (0 : Fin 2) * 1 + 1 * (j 0).val = (j 0).val; omega
  | ⟨1, _⟩ => show win2_6.index t (1 : Fin 2) * 10 + 1 * (j 1).val = (j 1).val; omega

theorem read_blk7 (t : Fin cfg2.N) (G : Vec Ideal S64x10 .f32) : ((cfg2.win 7).blk t).view.read (Elt Ideal) G = G := by
  funext j
  show G (((cfg2.win 7).blk t).view.emb j) = G j
  congr 1
  obtain ⟨-, -, -, -, e0, e1⟩ := idx_zero t
  funext a; apply Fin.ext
  match a with
  | ⟨0, _⟩ => show win2_7.index t (0 : Fin 2) * 64 + 1 * (j 0).val = (j 0).val; omega
  | ⟨1, _⟩ => show win2_7.index t (1 : Fin 2) * 10 + 1 * (j 1).val = (j 1).val; omega

theorem mem_blk7 (t : Fin cfg2.N) (i : S64x10.Idx) : i ∈ ((cfg2.win 7).blk t).view.set := by
  show i ∈ ((View.whole main_v61).slice (win2_7.rect t)).set
  rw [View.set_slice_whole, Rect.mem_set_unit]
  obtain ⟨-, -, -, -, e0, e1⟩ := idx_zero t
  intro a
  match a with
  | ⟨0, _⟩ => show win2_7.index t (0 : Fin 2) * 64 ≤ (i 0).val ∧ (i 0).val < win2_7.index t (0 : Fin 2) * 64 + 64; have hi : (i 0).val < 64 := (i 0).isLt; omega
  | ⟨1, _⟩ => show win2_7.index t (1 : Fin 2) * 10 ≤ (i 1).val ∧ (i 1).val < win2_7.index t (1 : Fin 2) * 10 + 10; have hi : (i 1).val < 10 := (i 1).isLt; omega

theorem flushed7 (c : Dev nD) (h19 : 19 < cfg2.N) (t : Fin cfg2.N) (hf : (cfg2.win 7).flush t = true) :
    (dat2 (F := Ideal) V c).flushed 7 t = ((cfg2.win 7).blk t).view.read (Elt Ideal)
      (out2_7 (F := Ideal) (V c main_arg7 : Vec Ideal S64x10 .f32) (V c main_v32 : Vec Ideal S1x10 .f32) (accAt2 V c 19 h19).1 (accAt2 V c 19 h19).2) := by
  refine Eq.trans ?_ (read_blk7 t _).symm
  show (cfg2.win 7).cut (grid2.coords t) ((dat2 V c).after 7 t) = _
  rw [after2_7]
  show out2_7 (iblk2 V c 5 t) (iblk2 V c 6 t) (accAt2 V c t.val t.isLt).1 (accAt2 V c t.val t.isLt).2 = _
  rw [iblk5, iblk6]
  have ht : t.val = 19 := by
    have h := (flush2_7 t).mp hf
    have hN : t.val < 20 := lt_of_lt_of_eq t.isLt (show cfg2.N = 20 from N_2)
    omega
  obtain ⟨n, hn⟩ := t
  have hn19 : n = 19 := ht
  subst hn19
  rfl

end Arr2

theorem arr2 (c : Dev nD) (h19 : 19 < cfg2.N) :
    ((dat2 (F := Ideal) V c).arrAt 7 cfg2.N : Vec Ideal S64x10 .f32)
      = out2_7 (F := Ideal) (V c main_arg7 : Vec Ideal S64x10 .f32) (V c main_v32 : Vec Ideal S1x10 .f32) (accAt2 V c 19 h19).1 (accAt2 V c 19 h19).2 :=
  (dat2 (F := Ideal) V c).arrAt_eq_of_cover 7 _ (fun t hf => Arr2.flushed7 V c h19 t hf)
    (fun i => ⟨⟨19, h19⟩, (flush2_7 ⟨19, h19⟩).mpr rfl, Arr2.mem_blk7 _ i⟩)

end Cert.KernelIdeal.Val

end
-- ==== Proof.Val.KVal.lean ====
import proofs.«420834_j16097537425459_2_alg».proof.Proof.KI.RunAll
import proofs.«420834_j16097537425459_2_alg».proof.Proof.Val.HostK
import proofs.«420834_j16097537425459_2_alg».proof.Proof.Val.Val01
import proofs.«420834_j16097537425459_2_alg».proof.Proof.Val.Acc2
import proofs.«420834_j16097537425459_2_alg».proof.Proof.Val.Out2
import proofs.«420834_j16097537425459_2_alg».proof.Proof.Val.Arr2
import proofs.«420834_j16097537425459_2_alg».proof.Proof.Gen.KernelIdeal.Regions
import proofs.«420834_j16097537425459_2_alg».proof.Proof.Spec

set_option maxRecDepth 16384

noncomputable section

namespace Cert.KernelIdeal.Val

open Idealize.ShloMosaic Idealize.ShloMosaic.TcCoe Idealize.ShloMosaic.ValueIdx
open Idealize.ShloMosaic.Pipeline (Dat)
open Cert.KernelIdeal Cert.KernelIdeal.Fr
open Cert.KernelIdeal.Gen (hostOps0 hostOps1 hostOps2 shapeCasts_S64_S1x64 shapeCasts_S100000_S100000x1 shapeCasts_S10_S1x10)
open scoped BigOperators

def aggKc (ei : IVec S2x1600000 32) (h : Fin 100000 → Fin 64 → EReal) : Fin 100000 → Fin 64 → EReal :=
  fun n k => aggOf (F := Ideal) (srcOf ei) (dstOf ei) (normcolOf (F := Ideal) ei) (fun i => h (i 0) (i 1)) (ix2 n k)

def d2K (ei : IVec S2x1600000 32) : Fin 100000 → EReal := fun n => d2colOf (F := Ideal) ei (ix2 n 0)

namespace KVal

section Walk
variable {F : FTy → Type} [FloatOps F]
variable (m : (ℓ : Loc nD τ sig) → Buf (Elt F) ℓ) (ρ : Dev nD → PrngReg)

theorem V1_arg0 (c : Dev nD) : V1 m ρ c main_arg0 = m ((c.tc : Thread nD τ).loc main_arg0) :=
  W1_keep m ρ c main_arg0 (by decide)

theorem V1_arg3 (c : Dev nD) : V1 m ρ c main_arg3 = m ((c.tc : Thread nD τ).loc main_arg3) :=
  W1_keep m ρ c main_arg3 (by decide)

theorem W2_v1 (c : Dev nD) :
    (W2 m ρ c (Proc.devRef .tc main_v1) : IVec S1600000 32) = srcOf (m ((c.tc : Thread nD τ).loc main_arg1)) :=
  (W2_of_ne m ρ c main_v1 (by decide)).trans (v1_eq (W0 m ρ c))

theorem W2_v3 (c : Dev nD) :
    (W2 m ρ c (Proc.devRef .tc main_v3) : IVec S1600000 32) = dstOf (m ((c.tc : Thread nD τ).loc main_arg1)) :=
  (W2_of_ne m ρ c main_v3 (by decide)).trans (v3_eq (W0 m ρ c))

theorem W2_v29 (c : Dev nD) :
    (W2 m ρ c (Proc.devRef .tc main_v29) : FVec F S1600000x1 .f32) = normcolOf (F := F) (m ((c.tc : Thread nD τ).loc main_arg1)) :=
  (W2_of_ne m ρ c main_v29 (by decide)).trans (v29_eq (W0 m ρ c))

theorem W2_v13 (c : Dev nD) :
    (W2 m ρ c (Proc.devRef .tc main_v13) : FVec F S100000x1 .f32) = d2colOf (F := F) (m ((c.tc : Thread nD τ).loc main_arg1)) :=
  (W2_of_ne m ρ c main_v13 (by decide)).trans (v13_eq (W0 m ρ c))

theorem V3_v46 (c : Dev nD) :
    (V3 m ρ c main_v46 : FVec F S100000x64 .f32)
      = aggOf (F := F) (srcOf (m ((c.tc : Thread nD τ).loc main_arg1))) (dstOf (m ((c.tc : Thread nD τ).loc main_arg1)))
          (normcolOf (F := F) (m ((c.tc : Thread nD τ).loc main_arg1))) ((dat0 (V1 m ρ) c).arrAt 2 cfg0.N) :=
  (v46_eq (W2 m ρ c)).trans (by rw [W2_v1, W2_v3, W2_v29, W2_arr m ρ c 2])

theorem V3_v33 (c : Dev nD) : V3 m ρ c main_v33 = (dat0 (V1 m ρ) c).arrAt 2 cfg0.N :=
  (W3_keep m ρ c main_v33 (by decide)).trans (W2_arr m ρ c 2)

theorem V3_v13 (c : Dev nD) :
    (V3 m ρ c main_v13 : FVec F S100000x1 .f32) = d2colOf (F := F) (m ((c.tc : Thread nD τ).loc main_arg1)) :=
  (W3_keep m ρ c main_v13 (by decide)).trans (W2_v13 m ρ c)

theorem V3_v30 (c : Dev nD) :
    (V3 m ρ c main_v30 : FVec F S1x64 .f32)
      = shapeCast S1x64 (m ((c.tc : Thread nD τ).loc main_arg4) : FVec F S64 .f32) shapeCasts_S64_S1x64 :=
  (W3_keep m ρ c main_v30 (by decide)).trans ((W2_of_ne m ρ c main_v30 (by decide)).trans (v30_eq (W0 m ρ c)))

theorem V3_arg5 (c : Dev nD) : V3 m ρ c main_arg5 = m ((c.tc : Thread nD τ).loc main_arg5) :=
  (W3_keep m ρ c main_arg5 (by decide)).trans ((W2_of_ne m ρ c main_arg5 (by decide)).trans (W1_keep m ρ c main_arg5 (by decide)))

theorem W4_v1 (c : Dev nD) :
    (W4 m ρ c (Proc.devRef .tc main_v1) : IVec S1600000 32) = srcOf (m ((c.tc : Thread nD τ).loc main_arg1)) :=
  (W4_of_ne m ρ c main_v1 (by decide)).trans ((W3_keep m ρ c main_v1 (by decide)).trans (W2_v1 m ρ c))

theorem W4_v3 (c : Dev nD) :
    (W4 m ρ c (Proc.devRef .tc main_v3) : IVec S1600000 32) = dstOf (m ((c.tc : Thread nD τ).loc main_arg1)) :=
  (W4_of_ne m ρ c main_v3 (by decide)).trans ((W3_keep m ρ c main_v3 (by decide)).trans (W2_v3 m ρ c))

theorem W4_v29 (c : Dev nD) :
    (W4 m ρ c (Proc.devRef .tc main_v29) : FVec F S1600000x1 .f32) = normcolOf (F := F) (m ((c.tc : Thread nD τ).loc main_arg1)) :=
  (W4_of_ne m ρ c main_v29 (by decide)).trans ((W3_keep m ρ c main_v29 (by decide)).trans (W2_v29 m ρ c))

theorem V5_v60 (c : Dev nD) :
    (V5 m ρ c main_v60 : FVec F S100000x64 .f32)
      = aggOf (F := F) (srcOf (m ((c.tc : Thread nD τ).loc main_arg1))) (dstOf (m ((c.tc : Thread nD τ).loc main_arg1)))
          (normcolOf (F := F) (m ((c.tc : Thread nD τ).loc main_arg1))) ((dat1 (V3 m ρ) c).arrAt 5 cfg1.N) :=
  (v60_eq (W4 m ρ c)).trans (by rw [W4_v1, W4_v3, W4_v29, W4_arr m ρ c 5])

theorem V5_v47 (c : Dev nD) : V5 m ρ c main_v47 = (dat1 (V3 m ρ) c).arrAt 5 cfg1.N :=
  (W5_keep m ρ c main_v47 (by decide)).trans (W4_arr m ρ c 5)

theorem V5_v13 (c : Dev nD) :
    (V5 m ρ c main_v13 : FVec F S100000x1 .f32) = d2colOf (F := F) (m ((c.tc : Thread nD τ).loc main_arg1)) :=
  (W5_keep m ρ c main_v13 (by decide)).trans ((W4_in m ρ c 2 rfl).trans ((W3_keep m ρ c main_v13 (by decide)).trans (W2_v13 m ρ c)))

theorem V5_v31 (c : Dev nD) :
    (V5 m ρ c main_v31 : FVec F S1x64 .f32)
      = shapeCast S1x64 (m ((c.tc : Thread nD τ).loc main_arg6) : FVec F S64 .f32) shapeCasts_S64_S1x64 :=
  (W5_keep m ρ c main_v31 (by decide)).trans ((W4_of_ne m ρ c main_v31 (by decide)).trans ((W3_keep m ρ c main_v31 (by decide)).trans
    ((W2_of_ne m ρ c main_v31 (by decide)).trans (v31_eq (W0 m ρ c)))))

theorem V5_v4 (c : Dev nD) :
    (V5 m ρ c main_v4 : IVec S100000x1 32)
      = shapeCast S100000x1 (m ((c.tc : Thread nD τ).loc main_arg2) : IVec S100000 32) shapeCasts_S100000_S100000x1 :=
  (W5_keep m ρ c main_v4 (by decide)).trans ((W4_of_ne m ρ c main_v4 (by decide)).trans ((W3_keep m ρ c main_v4 (by decide)).trans
    ((W2_of_ne m ρ c main_v4 (by decide)).trans (v4_eq (W0 m ρ c)))))

theorem V5_arg7 (c : Dev nD) : V5 m ρ c main_arg7 = m ((c.tc : Thread nD τ).loc main_arg7) :=
  (W5_keep m ρ c main_arg7 (by decide)).trans ((W4_of_ne m ρ c main_arg7 (by decide)).trans ((W3_keep m ρ c main_arg7 (by decide)).trans
    ((W2_of_ne m ρ c main_arg7 (by decide)).trans (W1_keep m ρ c main_arg7 (by decide)))))

theorem V5_v32 (c : Dev nD) :
    (V5 m ρ c main_v32 : FVec F S1x10 .f32)
      = shapeCast S1x10 (m ((c.tc : Thread nD τ).loc main_arg8) : FVec F S10 .f32) shapeCasts_S10_S1x10 :=
  (W5_keep m ρ c main_v32 (by decide)).trans ((W4_of_ne m ρ c main_v32 (by decide)).trans ((W3_keep m ρ c main_v32 (by decide)).trans
    ((W2_of_ne m ρ c main_v32 (by decide)).trans (v32_eq (W0 m ρ c)))))

end Walk

section Ideal
variable (m : (ℓ : Loc nD τ sig) → Buf (Elt Ideal) ℓ) (ρ : Dev nD → PrngReg) (c : Dev nD)

abbrev eiK : IVec S2x1600000 32 := m ((c.tc : Thread nD τ).loc main_arg1)

abbrev xK : Fin 100000 → Fin 128 → EReal := fun n k => (m ((c.tc : Thread nD τ).loc main_arg0) : Vec Ideal S100000x128 .f32) (ix2 n k)
abbrev w1K : Fin 128 → Fin 64 → EReal := fun k j => (m ((c.tc : Thread nD τ).loc main_arg3) : Vec Ideal S128x64 .f32) (ix2 k j)
abbrev b1K : Fin 64 → EReal := fun k => (m ((c.tc : Thread nD τ).loc main_arg4) : Vec Ideal S64 .f32) (ix1 k)
abbrev w2K : Fin 64 → Fin 64 → EReal := fun k j => (m ((c.tc : Thread nD τ).loc main_arg5) : Vec Ideal S64x64 .f32) (ix2 k j)
abbrev b2K : Fin 64 → EReal := fun k => (m ((c.tc : Thread nD τ).loc main_arg6) : Vec Ideal S64 .f32) (ix1 k)
abbrev btK : Fin 100000 → ℤ := fun n => ((m ((c.tc : Thread nD τ).loc main_arg2) : Vec Ideal S100000 .i32) (ix1 n)).toInt
abbrev wlK : Fin 64 → Fin 10 → EReal := fun k j => (m ((c.tc : Thread nD τ).loc main_arg7) : Vec Ideal S64x10 .f32) (ix2 k j)
abbrev blK : Fin 10 → EReal := fun j => (m ((c.tc : Thread nD τ).loc main_arg8) : Vec Ideal S10 .f32) (ix1 j)

abbrev h1K : Fin 100000 → Fin 64 → EReal := Cert.Spec.mm (xK m c) (w1K m c)
abbrev a1K : Fin 100000 → Fin 64 → EReal := Cert.Spec.combine (aggKc (eiK m c) (h1K m c)) (h1K m c) (d2K (eiK m c)) (b1K m c)
abbrev h2K : Fin 100000 → Fin 64 → EReal := Cert.Spec.mm (a1K m c) (w2K m c)
abbrev a2K : Fin 100000 → Fin 64 → EReal := Cert.Spec.combine (aggKc (eiK m c) (h2K m c)) (h2K m c) (d2K (eiK m c)) (b2K m c)

theorem repack {α : Type} {a b : ℕ} (A : (⟨2, ![a, b]⟩ : Shape).Idx → α) (h : Fin a → Fin b → α)
    (hA : ∀ n k, A (ix2 n k) = h n k) : A = fun i => h (i 0) (i 1) :=
  funext fun i => (congrArg A (eq_ix2 i)).trans (hA (i 0) (i 1))

theorem h1_at (n : Fin 100000) (j : Fin 64) :
    ((dat0 (F := Ideal) (V1 m ρ) c).arrAt 2 cfg0.N : Vec Ideal S100000x64 .bf16) (ix2 n j) = h1K m c n j := by
  have h := arr0 (V1 m ρ) c n j
  rw [V1_arg0, V1_arg3] at h
  exact h

theorem h1_fun : ((dat0 (F := Ideal) (V1 m ρ) c).arrAt 2 cfg0.N : Vec Ideal S100000x64 .bf16) = fun i => h1K m c (i 0) (i 1) :=
  repack _ _ (h1_at m ρ c)

theorem ag1_at (n : Fin 100000) (k : Fin 64) :
    (V3 m ρ c main_v46 : Vec Ideal S100000x64 .f32) (ix2 n k) = aggKc (eiK m c) (h1K m c) n k := by
  rw [V3_v46, h1_fun]; rfl

theorem h2_at (n : Fin 100000) (j : Fin 64) :
    ((dat1 (F := Ideal) (V3 m ρ) c).arrAt 5 cfg1.N : Vec Ideal S100000x64 .bf16) (ix2 n j) = h2K m c n j := by
  have e1 : (fun n k => (V3 m ρ c main_v46 : Vec Ideal S100000x64 .f32) (ix2 n k)) = aggKc (eiK m c) (h1K m c) :=
    funext fun n => funext fun k => ag1_at m ρ c n k
  have e2 : (fun n k => (V3 m ρ c main_v33 : Vec Ideal S100000x64 .bf16) (ix2 n k)) = h1K m c :=
    funext fun n => funext fun k => by rw [V3_v33]; exact h1_at m ρ c n k
  have e3 : (fun n => (V3 m ρ c main_v13 : Vec Ideal S100000x1 .f32) (ix2 n 0)) = d2K (eiK m c) := by
    rw [V3_v13]; rfl
  have e4 : (fun k => (V3 m ρ c main_v30 : Vec Ideal S1x64 .f32) (ix2 0 k)) = b1K m c :=
    funext fun k => by rw [V3_v30]; exact v30_apply _ 0 k
  have e5 : (fun k j => (V3 m ρ c main_arg5 : Vec Ideal S64x64 .f32) (ix2 k j)) = w2K m c := by
    rw [V3_arg5]
  have h := arr1 (V3 m ρ) c n j
  rw [e1, e2, e3, e4, e5] at h
  exact h

theorem h2_fun : ((dat1 (F := Ideal) (V3 m ρ) c).arrAt 5 cfg1.N : Vec Ideal S100000x64 .bf16) = fun i => h2K m c (i 0) (i 1) :=
  repack _ _ (h2_at m ρ c)

theorem AG_eq : Acc2.AG (V5 m ρ) c = aggKc (eiK m c) (h2K m c) :=
  funext fun n => funext fun k => by
    show (V5 m ρ c main_v60 : Vec Ideal S100000x64 .f32) (ix2 n k) = _
    rw [V5_v60, h2_fun]; rfl

theorem PH_eq : Acc2.PH (V5 m ρ) c = h2K m c :=
  funext fun n => funext fun k => by
    show (V5 m ρ c main_v47 : Vec Ideal S100000x64 .bf16) (ix2 n k) = _
    rw [V5_v47]; exact h2_at m ρ c n k

theorem D2_eq : Acc2.D2 (V5 m ρ) c = d2K (eiK m c) := by
  show (fun n => (V5 m ρ c main_v13 : Vec Ideal S100000x1 .f32) (ix2 n (0 : Fin 1))) = _
  rw [V5_v13]; rfl

theorem BI_eq : Acc2.BI (V5 m ρ) c = b2K m c :=
  funext fun k => by
    show (V5 m ρ c main_v31 : Vec Ideal S1x64 .f32) (ix2 (0 : Fin 1) k) = _
    rw [V5_v31]; exact v30_apply _ 0 k

theorem GN_eq : Acc2.GN (V5 m ρ) c = btK m c :=
  funext fun n => by
    show ((V5 m ρ c main_v4 : Vec Ideal S100000x1 .i32) (ix2 n (0 : Fin 1))).toInt = _
    rw [V5_v4]; exact congrArg BitVec.toInt (v4_apply _ n 0)

theorem wl_eq : (fun k j => (V5 m ρ c main_arg7 : Vec Ideal S64x10 .f32) (ix2 k j)) = wlK m c := by
  rw [V5_arg7]

theorem bl_eq : (fun j => (V5 m ρ c main_v32 : Vec Ideal S1x10 .f32) (ix2 0 j)) = blK m c :=
  funext fun j => by rw [V5_v32]; exact v32_apply _ 0 j

end Ideal

end KVal

theorem kernel_out (m : (ℓ : Loc nD τ sig) → Buf (Elt Ideal) ℓ) (ρ : Dev nD → PrngReg) (c : Dev nD) (g : Fin 64) (j : Fin 10) :
    (W6 (F := Ideal) m ρ c (Proc.devRef .tc main_v61) : Vec Ideal S64x10 .f32) (ix2 g j)
      = Cert.Spec.net (aggKc (m ((c.tc : Thread nD τ).loc main_arg1))) (d2K (m ((c.tc : Thread nD τ).loc main_arg1)))
          (fun n k => (m ((c.tc : Thread nD τ).loc main_arg0) : Vec Ideal S100000x128 .f32) (ix2 n k))
          (fun k j => (m ((c.tc : Thread nD τ).loc main_arg3) : Vec Ideal S128x64 .f32) (ix2 k j))
          (fun k => (m ((c.tc : Thread nD τ).loc main_arg4) : Vec Ideal S64 .f32) (ix1 k))
          (fun k j => (m ((c.tc : Thread nD τ).loc main_arg5) : Vec Ideal S64x64 .f32) (ix2 k j))
          (fun k => (m ((c.tc : Thread nD τ).loc main_arg6) : Vec Ideal S64 .f32) (ix1 k))
          (fun n => ((m ((c.tc : Thread nD τ).loc main_arg2) : Vec Ideal S100000 .i32) (ix1 n)).toInt)
          (fun k j => (m ((c.tc : Thread nD τ).loc main_arg7) : Vec Ideal S64x10 .f32) (ix2 k j))
          (fun j => (m ((c.tc : Thread nD τ).loc main_arg8) : Vec Ideal S10 .f32) (ix1 j)) g j := by
  have h19 : 19 < cfg2.N := by decide
  obtain ⟨hs, hc⟩ := acc_last (V5 m ρ) c h19
  have e1 : (fun g k => ((accAt2 (F := Ideal) (V5 m ρ) c 19 h19).1 : Vec Ideal S64x64 .f32) (ix2 g k))
      = Cert.Spec.segSum (KVal.btK m c) (KVal.a2K m c) := by
    funext g k; rw [hs g k, KVal.GN_eq, KVal.AG_eq, KVal.PH_eq, KVal.D2_eq, KVal.BI_eq]
  have e2 : (fun g => ((accAt2 (F := Ideal) (V5 m ρ) c 19 h19).2 : Vec Ideal S1x64 .f32) (ix2 0 g))
      = Cert.Spec.segCnt (KVal.btK m c) := by
    funext g; rw [hc g, KVal.GN_eq]
  have h := out2_7_apply (V5 m ρ c main_arg7) (V5 m ρ c main_v32) (accAt2 (F := Ideal) (V5 m ρ) c 19 h19).1
    (accAt2 (F := Ideal) (V5 m ρ) c 19 h19).2 g j
  rw [e1, e2, KVal.wl_eq, KVal.bl_eq] at h
  exact ((congrFun (W6_out m ρ c) (ix2 g j)).trans (congrFun (arr2 (V5 m ρ) c h19) (ix2 g j))).trans h

end Cert.KernelIdeal.Val

end
-- ==== Proof.RefGen.lean ====
import proofs.«420834_j16097537425459_2_alg».proof.Proof.Gen.ReferenceIdeal.Run
import proofs.«420834_j16097537425459_2_alg».proof.Proof.Gen.ReferenceIdeal.Read
-- ==== Proof.LibRows.lean ====
import Idealize.ShloMosaic.Lib.ValueIdx
import Idealize.ShloMosaic.Lib.Pipeline.Value
import Idealize.ShloMosaic.PureOps.Ideal.Laws

noncomputable section

open scoped BigOperators

namespace Idealize.ShloMosaic.ValueIdx

open Idealize.ShloMosaic

abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rowGather_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show (1 : Fin 2) ∉ (rowGatherDims N E C wf).startIndexMap by simp)]
    rw [hs]
    have hk : (rowGatherDims N E C wf).sKept = [(1 : Fin 2)] := rfl
    unfold GatherDims.offCoord
    rw [dif_pos (show (1 : Fin 2) ∈ (rowGatherDims N E C wf).sKept from by rw [hk]; exact List.mem_singleton.mpr rfl)]
    have hi : List.idxOf (1 : Fin 2) (rowGatherDims N E C wf).sKept = 0 := by rw [hk]; exact List.idxOf_cons_self
    simp only [hi, Nat.zero_add]
    rfl

abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

private theorem rowScatter_resultIdx {N E C w : ℕ}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e (0 : Fin 1))).toInt = (n.val : ℤ) ∧ c' = c := by
  have hs0 : (rowScatterDims N E C wf).start (ix2 e c') idx (0 : Fin 2) = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e c') ⟨List.idxOf (0 : Fin 2) (rowScatterDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatterDims N E C wf).start (ix2 e c') idx (1 : Fin 2) = 0 := by
    unfold ScatterDims.start
    rw [dif_neg (show (1 : Fin 2) ∉ (rowScatterDims N E C wf).scatterDimsToOperandDims by simp)]
  have hk : (rowScatterDims N E C wf).sKept = [(1 : Fin 2)] := rfl
  have hw0 : (rowScatterDims N E C wf).window (ix2 e c') (0 : Fin 2) = 0 := by
    unfold ScatterDims.window
    rw [dif_neg (show (0 : Fin 2) ∉ (rowScatterDims N E C wf).sKept by rw [hk]; simp)]
  have hw1 : (rowScatterDims N E C wf).window (ix2 e c') (1 : Fin 2) = c'.val := by
    unfold ScatterDims.window
    rw [dif_pos (show (1 : Fin 2) ∈ (rowScatterDims N E C wf).sKept from by rw [hk]; exact List.mem_singleton.mpr rfl)]
    have hi : List.idxOf (1 : Fin 2) (rowScatterDims N E C wf).sKept = 0 := by rw [hk]; exact List.idxOf_cons_self
    simp only [hi]
    rfl
  constructor
  · intro h
    unfold ScatterDims.resultIdx? at h
    split at h
    · rename_i hb
      have h' := Option.some.inj h
      have h0 : ((rowScatterDims N E C wf).start (ix2 e c') idx (0 : Fin 2) + ((rowScatterDims N E C wf).window (ix2 e c') (0 : Fin 2) : ℤ)).toNat = n.val :=
        congrArg (fun f : (⟨2, ![N, C]⟩ : Shape).Idx => (f 0).val) h'
      have h1 : ((rowScatterDims N E C wf).start (ix2 e c') idx (1 : Fin 2) + ((rowScatterDims N E C wf).window (ix2 e c') (1 : Fin 2) : ℤ)).toNat = c.val :=
        congrArg (fun f : (⟨2, ![N, C]⟩ : Shape).Idx => (f 1).val) h'
      have hb0 := (hb 0).1
      have hb1 := (hb 1).1
      rw [hs0, hw0] at h0 hb0
      rw [hs1, hw1] at h1 hb1
      exact ⟨by omega, Fin.ext (by omega)⟩
    · exact absurd h (by simp)
  · rintro ⟨hrow, rfl⟩
    unfold ScatterDims.resultIdx?
    have hb : ∀ a : Fin 2, 0 ≤ (rowScatterDims N E C wf).start (ix2 e c') idx a + ((rowScatterDims N E C wf).window (ix2 e c') a : ℤ)
        ∧ (rowScatterDims N E C wf).start (ix2 e c') idx a + ((rowScatterDims N E C wf).window (ix2 e c') a : ℤ) < ((⟨2, ![N, C]⟩ : Shape).size a : ℤ) := by
      intro a
      match a with
      | ⟨0, _⟩ =>
        show 0 ≤ (rowScatterDims N E C wf).start (ix2 e c') idx (0 : Fin 2) + ((rowScatterDims N E C wf).window (ix2 e c') (0 : Fin 2) : ℤ)
          ∧ (rowScatterDims N E C wf).start (ix2 e c') idx (0 : Fin 2) + ((rowScatterDims N E C wf).window (ix2 e c') (0 : Fin 2) : ℤ) < (N : ℤ)
        rw [hs0, hw0, hrow]
        have := n.isLt
        omega
      | ⟨1, _⟩ =>
        show 0 ≤ (rowScatterDims N E C wf).start (ix2 e c') idx (1 : Fin 2) + ((rowScatterDims N E C wf).window (ix2 e c') (1 : Fin 2) : ℤ)
          ∧ (rowScatterDims N E C wf).start (ix2 e c') idx (1 : Fin 2) + ((rowScatterDims N E C wf).window (ix2 e c') (1 : Fin 2) : ℤ) < (C : ℤ)
        rw [hs1, hw1]
        have := c'.isLt
        omega
    rw [dif_pos hb]
    congr 1
    funext a
    refine Fin.ext ?_
    match a with
    | ⟨0, _⟩ =>
      show ((rowScatterDims N E C wf).start (ix2 e c') idx (0 : Fin 2) + ((rowScatterDims N E C wf).window (ix2 e c') (0 : Fin 2) : ℤ)).toNat = n.val
      rw [hs0, hw0, hrow]
      omega
    | ⟨1, _⟩ =>
      show ((rowScatterDims N E C wf).start (ix2 e c') idx (1 : Fin 2) + ((rowScatterDims N E C wf).window (ix2 e c') (1 : Fin 2) : ℤ)).toNat = c'.val
      rw [hs1, hw1]
      omega

theorem rowScatterAdd_apply {N E C w : ℕ}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (n : Fin N) (c : Fin C) :
    Host.scatterAdd (F := Ideal) (rowScatterDims N E C wf) x idx upd (ix2 n c)
      = x (ix2 n c) + ∑ e ∈ Finset.univ.filter (fun e : Fin E => (idx (ix2 e (0 : Fin 1))).toInt = (n.val : ℤ)),
          upd (ix2 e c) := by
  show Ideal.hostScatterAdd (rowScatterDims N E C wf) x idx upd (ix2 n c) = _
  unfold Ideal.hostScatterAdd
  congr 1
  rw [Finset.sum_filter, sum_idx2, Finset.sum_filter]
  refine Finset.sum_congr rfl fun e _ => ?_
  simp only [rowScatter_resultIdx]
  by_cases hrow : (idx (ix2 e (0 : Fin 1))).toInt = (n.val : ℤ)
  · simp only [hrow, true_and, if_true]
    rw [Finset.sum_ite_eq' Finset.univ c (fun c' => upd (ix2 e c'))]
    simp only [Finset.mem_univ, if_true]
  · simp only [hrow, false_and, if_false, Finset.sum_const_zero]

end Idealize.ShloMosaic.ValueIdx

end
-- ==== Proof.Val.RefLayers.lean ====
import proofs.«420834_j16097537425459_2_alg».proof.Proof.RefGen
import proofs.«420834_j16097537425459_2_alg».proof.Proof.Spec
import proofs.«420834_j16097537425459_2_alg».proof.Proof.LibRows
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.ReferenceIdeal.RefVal

open Idealize.ShloMosaic Idealize.ShloMosaic.TcCoe Idealize.ShloMosaic.ValueIdx Cert.ReferenceIdeal Cert.ReferenceIdeal.Read

def aggR (ei : IVec S2x1600000 32) (h : FVec Ideal S100000x64 .f32) : FVec Ideal S100000x64 .f32 :=
  Host.scatterAdd scatter_S100000x64_S1600000x1_S1600000x64_1_0_0_1 (val_main_v37 (F := Ideal)) (val_main_v38 (F := Ideal) ei)
    (mulf (Host.gather gather_S100000x64_S1600000x1_S1600000x64_1_0_n_n_0_1_164 h (val_main_v32 (F := Ideal) ei)) (val_main_v35 (F := Ideal) ei))

def aggRc (ei : IVec S2x1600000 32) (h : Fin 100000 → Fin 64 → EReal) : Fin 100000 → Fin 64 → EReal :=
  fun n k => aggR ei (fun i => h (i 0) (i 1)) (ix2 n k)

def d2R (ei : IVec S2x1600000 32) (n : Fin 100000) : EReal := val_main_v40 (F := Ideal) ei (ix1 n)

theorem v39_eq (x0 : FVec Ideal S100000x128 .f32) (x1 : IVec S2x1600000 32) (x3 : FVec Ideal S128x64 .f32) :
    val_main_v39 (F := Ideal) x0 x1 x3 = aggR x1 (val_main_v4 (F := Ideal) x0 x3) := rfl

theorem v83_eq : val_main_v83 (F := Ideal) = val_main_v38 (F := Ideal) := rfl
theorem v82_eq : val_main_v82 (F := Ideal) = val_main_v37 (F := Ideal) := rfl
theorem v77_eq : val_main_v77 (F := Ideal) = val_main_v32 (F := Ideal) := rfl
theorem v56_eq : val_main_v56 (F := Ideal) = val_main_v11 (F := Ideal) := rfl
theorem v85_eq : val_main_v85 (F := Ideal) = val_main_v40 (F := Ideal) := by
  funext ei; unfold val_main_v85 val_main_v40; rw [v56_eq]
theorem v80_eq : val_main_v80 (F := Ideal) = val_main_v35 (F := Ideal) := by
  funext ei
  have h62 : val_main_v62 (F := Ideal) ei = val_main_v17 (F := Ideal) ei := rfl
  have h69 : val_main_v69 (F := Ideal) ei = val_main_v24 (F := Ideal) ei := rfl
  unfold val_main_v80 val_main_v35 val_main_v79 val_main_v34 val_main_v71 val_main_v26 val_main_v63 val_main_v18 val_main_v70 val_main_v25
  rw [v56_eq, h62, h69]

theorem v84_eq (x0 : FVec Ideal S100000x128 .f32) (x1 : IVec S2x1600000 32) (x3 : FVec Ideal S128x64 .f32)
    (x4 : FVec Ideal S64 .f32) (x5 : FVec Ideal S64x64 .f32) :
    val_main_v84 (F := Ideal) x0 x1 x3 x4 x5 = aggR x1 (val_main_v49 (F := Ideal) x0 x1 x3 x4 x5) := by
  unfold val_main_v84 val_main_v81 val_main_v78 aggR
  rw [v83_eq, v82_eq, v77_eq, v80_eq]

theorem lidx4_eq (n : Fin 100000) (k : Fin 64) (j : Fin 128) : lidx_main_v4 (ix2 n k) j = ix2 n j :=
  funext fun a => Fin.ext (by match a with | ⟨0, _⟩ => rfl | ⟨1, _⟩ => rfl)
theorem ridx4_eq (n : Fin 100000) (k : Fin 64) (j : Fin 128) : ridx_main_v4 (ix2 n k) j = ix2 j k :=
  funext fun a => Fin.ext (by match a with | ⟨0, _⟩ => rfl | ⟨1, _⟩ => rfl)
theorem lidx49_eq (n : Fin 100000) (k : Fin 64) (j : Fin 64) : lidx_main_v49 (ix2 n k) j = ix2 n j :=
  funext fun a => Fin.ext (by match a with | ⟨0, _⟩ => rfl | ⟨1, _⟩ => rfl)
theorem ridx49_eq (n : Fin 100000) (k : Fin 64) (j : Fin 64) : ridx_main_v49 (ix2 n k) j = ix2 j k :=
  funext fun a => Fin.ext (by match a with | ⟨0, _⟩ => rfl | ⟨1, _⟩ => rfl)

theorem idx41_42_eq (n : Fin 100000) (k : Fin 64) : idx_main_v41 (idx_main_v42 (ix2 n k)) = ix1 n :=
  funext fun a => Fin.ext (by match a with | ⟨0, _⟩ => rfl)
theorem idx86_87_eq (n : Fin 100000) (k : Fin 64) : idx_main_v86 (idx_main_v87 (ix2 n k)) = ix1 n :=
  funext fun a => Fin.ext (by match a with | ⟨0, _⟩ => rfl)

theorem idx45_46_eq (n : Fin 100000) (k : Fin 64) : idx_main_v45 (idx_main_v46 (ix2 n k)) = ix1 k :=
  funext fun a => Fin.ext (by match a with | ⟨0, _⟩ => rfl)
theorem idx90_91_eq (n : Fin 100000) (k : Fin 64) : idx_main_v90 (idx_main_v91 (ix2 n k)) = ix1 k :=
  funext fun a => Fin.ext (by match a with | ⟨0, _⟩ => rfl)

theorem v4_fun (x0 : FVec Ideal S100000x128 .f32) (x3 : FVec Ideal S128x64 .f32) :
    val_main_v4 (F := Ideal) x0 x3
      = fun i => Cert.Spec.mm (fun n k => x0 (ix2 n k)) (fun k j => x3 (ix2 k j)) (i 0) (i 1) := by
  funext i
  obtain ⟨n, k, rfl⟩ : ∃ (n : Fin 100000) (k : Fin 64), i = ix2 n k := ⟨i 0, i 1, eq_ix2 i⟩
  rw [val_main_v4_apply]
  show _ = ∑ j : Fin 128, x0 (ix2 n j) * x3 (ix2 j k)
  refine Finset.sum_congr rfl fun j _ => ?_
  rw [lidx4_eq, ridx4_eq]

theorem v48_apply (x0 : FVec Ideal S100000x128 .f32) (x1 : IVec S2x1600000 32) (x3 : FVec Ideal S128x64 .f32)
    (x4 : FVec Ideal S64 .f32) (n : Fin 100000) (k : Fin 64) :
    val_main_v48 (F := Ideal) x0 x1 x3 x4 (ix2 n k)
      = Cert.Spec.combine (aggRc x1 (Cert.Spec.mm (fun n k => x0 (ix2 n k)) (fun k j => x3 (ix2 k j))))
          (Cert.Spec.mm (fun n k => x0 (ix2 n k)) (fun k j => x3 (ix2 k j))) (d2R x1) (fun k => x4 (ix1 k)) n k := by
  rw [val_main_v48_apply, val_main_v47_apply, val_main_v44_apply, val_main_v43_apply, val_main_call0_v0_apply,
    val_main_call0_cst_apply, val_main_v46_apply, val_main_v45_apply, val_main_v42_apply, val_main_v41_apply,
    v39_eq, v4_fun, idx41_42_eq, idx45_46_eq]
  simp only [Ideal.addf_def, Ideal.mulf_def, Ideal.maximumf_def]
  rfl

theorem v48_fun (x0 : FVec Ideal S100000x128 .f32) (x1 : IVec S2x1600000 32) (x3 : FVec Ideal S128x64 .f32)
    (x4 : FVec Ideal S64 .f32) :
    val_main_v48 (F := Ideal) x0 x1 x3 x4
      = fun i => Cert.Spec.combine (aggRc x1 (Cert.Spec.mm (fun n k => x0 (ix2 n k)) (fun k j => x3 (ix2 k j))))
          (Cert.Spec.mm (fun n k => x0 (ix2 n k)) (fun k j => x3 (ix2 k j))) (d2R x1) (fun k => x4 (ix1 k)) (i 0) (i 1) := by
  funext i
  obtain ⟨n, k, rfl⟩ : ∃ (n : Fin 100000) (k : Fin 64), i = ix2 n k := ⟨i 0, i 1, eq_ix2 i⟩
  exact v48_apply x0 x1 x3 x4 n k

theorem v49_fun (x0 : FVec Ideal S100000x128 .f32) (x1 : IVec S2x1600000 32) (x3 : FVec Ideal S128x64 .f32)
    (x4 : FVec Ideal S64 .f32) (x5 : FVec Ideal S64x64 .f32) :
    val_main_v49 (F := Ideal) x0 x1 x3 x4 x5
      = fun i => Cert.Spec.mm
          (Cert.Spec.combine (aggRc x1 (Cert.Spec.mm (fun n k => x0 (ix2 n k)) (fun k j => x3 (ix2 k j))))
            (Cert.Spec.mm (fun n k => x0 (ix2 n k)) (fun k j => x3 (ix2 k j))) (d2R x1) (fun k => x4 (ix1 k)))
          (fun k j => x5 (ix2 k j)) (i 0) (i 1) := by
  funext i
  obtain ⟨n, k, rfl⟩ : ∃ (n : Fin 100000) (k : Fin 64), i = ix2 n k := ⟨i 0, i 1, eq_ix2 i⟩
  rw [val_main_v49_apply, v48_fun]
  show _ = ∑ j : Fin 64, _ * x5 (ix2 j k)
  refine Finset.sum_congr rfl fun j _ => ?_
  rw [lidx49_eq, ridx49_eq]

theorem v93_apply (x0 : FVec Ideal S100000x128 .f32) (x1 : IVec S2x1600000 32) (x3 : FVec Ideal S128x64 .f32)
    (x4 : FVec Ideal S64 .f32) (x5 : FVec Ideal S64x64 .f32) (x6 : FVec Ideal S64 .f32) (n : Fin 100000) (k : Fin 64) :
    val_main_v93 (F := Ideal) x0 x1 x3 x4 x5 x6 (ix2 n k)
      = Cert.Spec.combine
          (aggRc x1 (Cert.Spec.mm
            (Cert.Spec.combine (aggRc x1 (Cert.Spec.mm (fun n k => x0 (ix2 n k)) (fun k j => x3 (ix2 k j))))
              (Cert.Spec.mm (fun n k => x0 (ix2 n k)) (fun k j => x3 (ix2 k j))) (d2R x1) (fun k => x4 (ix1 k)))
            (fun k j => x5 (ix2 k j))))
          (Cert.Spec.mm
            (Cert.Spec.combine (aggRc x1 (Cert.Spec.mm (fun n k => x0 (ix2 n k)) (fun k j => x3 (ix2 k j))))
              (Cert.Spec.mm (fun n k => x0 (ix2 n k)) (fun k j => x3 (ix2 k j))) (d2R x1) (fun k => x4 (ix1 k)))
            (fun k j => x5 (ix2 k j)))
          (d2R x1) (fun k => x6 (ix1 k)) n k := by
  rw [val_main_v93_apply, val_main_v92_apply, val_main_v89_apply, val_main_v88_apply, val_main_call1_v0_apply,
    val_main_call1_cst_apply, val_main_v91_apply, val_main_v90_apply, val_main_v87_apply, val_main_v86_apply,
    v84_eq, v49_fun, idx86_87_eq, idx90_91_eq, v85_eq]
  simp only [Ideal.addf_def, Ideal.mulf_def, Ideal.maximumf_def]
  rfl

theorem v93_fun (x0 : FVec Ideal S100000x128 .f32) (x1 : IVec S2x1600000 32) (x3 : FVec Ideal S128x64 .f32)
    (x4 : FVec Ideal S64 .f32) (x5 : FVec Ideal S64x64 .f32) (x6 : FVec Ideal S64 .f32) :
    val_main_v93 (F := Ideal) x0 x1 x3 x4 x5 x6
      = fun i => Cert.Spec.combine
          (aggRc x1 (Cert.Spec.mm
            (Cert.Spec.combine (aggRc x1 (Cert.Spec.mm (fun n k => x0 (ix2 n k)) (fun k j => x3 (ix2 k j))))
              (Cert.Spec.mm (fun n k => x0 (ix2 n k)) (fun k j => x3 (ix2 k j))) (d2R x1) (fun k => x4 (ix1 k)))
            (fun k j => x5 (ix2 k j))))
          (Cert.Spec.mm
            (Cert.Spec.combine (aggRc x1 (Cert.Spec.mm (fun n k => x0 (ix2 n k)) (fun k j => x3 (ix2 k j))))
              (Cert.Spec.mm (fun n k => x0 (ix2 n k)) (fun k j => x3 (ix2 k j))) (d2R x1) (fun k => x4 (ix1 k)))
            (fun k j => x5 (ix2 k j)))
          (d2R x1) (fun k => x6 (ix1 k)) (i 0) (i 1) := by
  funext i
  obtain ⟨n, k, rfl⟩ : ∃ (n : Fin 100000) (k : Fin 64), i = ix2 n k := ⟨i 0, i 1, eq_ix2 i⟩
  exact v93_apply x0 x1 x3 x4 x5 x6 n k

end Cert.ReferenceIdeal.RefVal

end
-- ==== Proof.LibVecScatter.lean ====
import Idealize.ShloMosaic.Lib.ValueIdx
import Idealize.ShloMosaic.Lib.ValueIdxRank1
import Idealize.ShloMosaic.Lib.Pipeline.Value
import Idealize.ShloMosaic.PureOps.Ideal.Laws

noncomputable section

open scoped BigOperators

namespace Idealize.ShloMosaic.ValueIdx

open Idealize.ShloMosaic

abbrev vecScatterDims (N E : ℕ)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

private theorem vecScatter_resultIdx {N E w : ℕ}
    (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n)
      ↔ (idx (ix2 e (0 : Fin 1))).toInt = (n.val : ℤ) := by
  have hs0 : (vecScatterDims N E wf).start (ix1 e) idx (0 : Fin 1) = (idx (ix2 e (0 : Fin 1))).toInt := by
    unfold ScatterDims.start
    rw [dif_pos (show (0 : Fin 1) ∈ (vecScatterDims N E wf).scatterDimsToOperandDims from List.mem_singleton.mpr rfl)]
    have hsi : (vecScatterDims N E wf).siIdx (ix1 e) ⟨List.idxOf (0 : Fin 1) (vecScatterDims N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hk : (vecScatterDims N E wf).sKept = [] := rfl
  have hw0 : (vecScatterDims N E wf).window (ix1 e) (0 : Fin 1) = 0 := by
    unfold ScatterDims.window
    rw [dif_neg (show (0 : Fin 1) ∉ (vecScatterDims N E wf).sKept by rw [hk]; simp)]
  constructor
  · intro h
    unfold ScatterDims.resultIdx? at h
    split at h
    · rename_i hb
      have h' := Option.some.inj h
      have h0 : ((vecScatterDims N E wf).start (ix1 e) idx (0 : Fin 1) + ((vecScatterDims N E wf).window (ix1 e) (0 : Fin 1) : ℤ)).toNat = n.val :=
        congrArg (fun f : (⟨1, ![N]⟩ : Shape).Idx => (f 0).val) h'
      have hb0 := (hb 0).1
      rw [hs0, hw0] at h0 hb0
      omega
    · exact absurd h (by simp)
  · intro hrow
    unfold ScatterDims.resultIdx?
    have hb : ∀ a : Fin 1, 0 ≤ (vecScatterDims N E wf).start (ix1 e) idx a + ((vecScatterDims N E wf).window (ix1 e) a : ℤ)
        ∧ (vecScatterDims N E wf).start (ix1 e) idx a + ((vecScatterDims N E wf).window (ix1 e) a : ℤ) < ((⟨1, ![N]⟩ : Shape).size a : ℤ) := by
      intro a
      match a with
      | ⟨0, _⟩ =>
        show 0 ≤ (vecScatterDims N E wf).start (ix1 e) idx (0 : Fin 1) + ((vecScatterDims N E wf).window (ix1 e) (0 : Fin 1) : ℤ)
          ∧ (vecScatterDims N E wf).start (ix1 e) idx (0 : Fin 1) + ((vecScatterDims N E wf).window (ix1 e) (0 : Fin 1) : ℤ) < (N : ℤ)
        rw [hs0, hw0, hrow]
        have := n.isLt
        omega
    rw [dif_pos hb]
    congr 1
    funext a
    refine Fin.ext ?_
    match a with
    | ⟨0, _⟩ =>
      show ((vecScatterDims N E wf).start (ix1 e) idx (0 : Fin 1) + ((vecScatterDims N E wf).window (ix1 e) (0 : Fin 1) : ℤ)).toNat = n.val
      rw [hs0, hw0, hrow]
      omega

theorem vecScatterAdd_apply {N E w : ℕ}
    (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32)
    (n : Fin N) :
    Host.scatterAdd (F := Ideal) (vecScatterDims N E wf) x idx upd (ix1 n)
      = x (ix1 n) + ∑ e ∈ Finset.univ.filter (fun e : Fin E => (idx (ix2 e (0 : Fin 1))).toInt = (n.val : ℤ)),
          upd (ix1 e) := by
  show Ideal.hostScatterAdd (vecScatterDims N E wf) x idx upd (ix1 n) = _
  unfold Ideal.hostScatterAdd
  congr 1
  rw [Finset.sum_filter, ← Equiv.sum_comp (idxEquiv1 (n := E)).symm, Finset.sum_filter]
  refine Finset.sum_congr rfl fun e _ => ?_
  show (if (vecScatterDims N E wf).resultIdx? (ix1 e) idx = some (ix1 n) then upd (ix1 e) else 0) = _
  simp only [vecScatter_resultIdx]

end Idealize.ShloMosaic.ValueIdx

end
-- ==== Proof.Val.RefPool.lean ====
import proofs.«420834_j16097537425459_2_alg».proof.Proof.RefGen
import proofs.«420834_j16097537425459_2_alg».proof.Proof.Spec
import proofs.«420834_j16097537425459_2_alg».proof.Proof.LibRows
import proofs.«420834_j16097537425459_2_alg».proof.Proof.LibVecScatter
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

open scoped BigOperators

namespace Cert.ReferenceIdeal.RefVal

open Idealize.ShloMosaic Idealize.ShloMosaic.TcCoe Idealize.ShloMosaic.ValueIdx Cert.ReferenceIdeal Cert.ReferenceIdeal.Read
open Cert.ReferenceIdeal.Gen Idealize.SL.Sem Idealize.ShloMosaic.StableHlo

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S128x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S64x10, .f32⟩ : BufTy).Contents (Elt Ideal))
  (x8 : (⟨S10, .f32⟩ : BufTy).Contents (Elt Ideal))

private theorem v95_at (e : Fin 100000) : val_main_v95 (F := Ideal) x2 (ix2 e (0 : Fin 1)) = x2 (ix1 e) := by
  rw [val_main_v95_apply]
  exact congrArg x2 (funext fun a => Fin.ext (by match a with | ⟨0, _⟩ => rfl))

private theorem v99_at (e : Fin 100000) : val_main_v99 (F := Ideal) x2 (ix2 e (0 : Fin 1)) = x2 (ix1 e) := by
  rw [val_main_v99_apply]
  exact congrArg x2 (funext fun a => Fin.ext (by match a with | ⟨0, _⟩ => rfl))

theorem v96_apply (g : Fin 64) (k : Fin 64) :
    val_main_v96 (F := Ideal) x0 x1 x2 x3 x4 x5 x6 (ix2 g k) = Cert.Spec.segSum (fun n : Fin 100000 => (x2 (ix1 n)).toInt) (fun (n : Fin 100000) (k : Fin 64) => val_main_v93 (F := Ideal) x0 x1 x3 x4 x5 x6 (ix2 n k)) g k := by
  unfold val_main_v96
  generalize val_main_v93 (F := Ideal) x0 x1 x3 x4 x5 x6 = y
  have hd : scatter_S64x64_S100000x1_S100000x64_1_0_0_1
      = rowScatterDims 64 100000 64 scatter_S64x64_S100000x1_S100000x64_1_0_0_1.wf := rfl
  rw [hd]
  refine (rowScatterAdd_apply _ (val_main_v94 (F := Ideal)) (val_main_v95 (F := Ideal) x2) y g k).trans ?_
  have hz : val_main_v94 (F := Ideal) (ix2 g k) = 0 := by
    rw [val_main_v94_apply, val_main_cst_18_apply]; exact Ideal.ofBits_zero_f32
  rw [hz, zero_add]
  unfold Cert.Spec.segSum
  simp only [v95_at]

theorem v100_apply (g : Fin 64) :
    val_main_v100 (F := Ideal) x2 (ix1 g) = Cert.Spec.segCnt (fun n : Fin 100000 => (x2 (ix1 n)).toInt) g := by
  unfold val_main_v100
  have hd : scatter_S64_S100000x1_S100000_n_0_0_1
      = vecScatterDims 64 100000 scatter_S64_S100000x1_S100000_n_0_0_1.wf := rfl
  rw [hd]
  refine (vecScatterAdd_apply _ (val_main_v98 (F := Ideal)) (val_main_v99 (F := Ideal) x2) (val_main_v97 (F := Ideal)) g).trans ?_
  have hz : val_main_v98 (F := Ideal) (ix1 g) = 0 := by
    rw [val_main_v98_apply, val_main_cst_20_apply]; exact Ideal.ofBits_zero_f32
  have h1 : ∀ e : Fin 100000, val_main_v97 (F := Ideal) (ix1 e) = Cert.Spec.oneE := fun e => by
    rw [val_main_v97_apply, val_main_cst_19_apply]; rfl
  rw [hz, zero_add]
  unfold Cert.Spec.segCnt
  simp only [v99_at, h1]

private theorem v105_at (g : Fin 64) (k : Fin 64) :
    val_main_v105 (F := Ideal) x0 x1 x2 x3 x4 x5 x6 (ix2 g k) = (Cert.Spec.pooled (Cert.Spec.segSum (fun n : Fin 100000 => (x2 (ix1 n)).toInt) (fun (n : Fin 100000) (k : Fin 64) => val_main_v93 (F := Ideal) x0 x1 x3 x4 x5 x6 (ix2 n k))) (Cert.Spec.segCnt (fun n : Fin 100000 => (x2 (ix1 n)).toInt))) g k := by
  rw [val_main_v105_apply, val_main_v104_apply, val_main_v103_apply]
  have hi : idx_main_v103 (idx_main_v104 (ix2 g k)) = ix1 g :=
    funext fun a => Fin.ext (by match a with | ⟨0, _⟩ => rfl)
  rw [hi, val_main_v102_apply, val_main_v101_apply, val_main_cst_21_apply, v96_apply, v100_apply]
  rfl

theorem v109_apply (g : Fin 64) (j : Fin 10) :
    val_main_v109 (F := Ideal) x0 x1 x2 x3 x4 x5 x6 x7 x8 (ix2 g j) = (Cert.Spec.logits (Cert.Spec.pooled (Cert.Spec.segSum (fun n : Fin 100000 => (x2 (ix1 n)).toInt) (fun (n : Fin 100000) (k : Fin 64) => val_main_v93 (F := Ideal) x0 x1 x3 x4 x5 x6 (ix2 n k))) (Cert.Spec.segCnt (fun n : Fin 100000 => (x2 (ix1 n)).toInt))) (fun k j => x7 (ix2 k j)) (fun j => x8 (ix1 j))) g j := by
  rw [val_main_v109_apply, val_main_v106_apply, val_main_v108_apply, val_main_v107_apply]
  have hl : ∀ k : Fin 64, lidx_main_v106 (ix2 g j) k = ix2 g k := fun k =>
    funext fun a => Fin.ext (by match a with | ⟨0, _⟩ => rfl | ⟨1, _⟩ => rfl)
  have hr : ∀ k : Fin 64, ridx_main_v106 (ix2 g j) k = ix2 k j := fun k =>
    funext fun a => Fin.ext (by match a with | ⟨0, _⟩ => rfl | ⟨1, _⟩ => rfl)
  have hb : idx_main_v107 (idx_main_v108 (ix2 g j)) = ix1 j :=
    funext fun a => Fin.ext (by match a with | ⟨0, _⟩ => rfl)
  simp only [hl, hr, hb, v105_at]
  rfl

private theorem lift_ix2_col {m n : ℕ} (h : (⟨2, ![m, n]⟩ : Shape).Reduces [1] (⟨1, ![m]⟩ : Shape)) (t : Fin m)
    (k : Fin ((⟨2, ![m, n]⟩ : Shape).size 1)) : h.lift (ix1 t) k = ix2 t (⟨k.val, k.isLt⟩ : Fin n) := by
  funext c; apply Fin.ext
  match c with
  | ⟨0, _⟩ => rfl
  | ⟨1, _⟩ => rfl

private theorem call2_v0_at (g : Fin 64) :
    val_main_call2_v0 (F := Ideal) x0 x1 x2 x3 x4 x5 x6 x7 x8 (ix1 g) = Cert.Spec.rowMax (Cert.Spec.logits (Cert.Spec.pooled (Cert.Spec.segSum (fun n : Fin 100000 => (x2 (ix1 n)).toInt) (fun (n : Fin 100000) (k : Fin 64) => val_main_v93 (F := Ideal) x0 x1 x3 x4 x5 x6 (ix2 n k))) (Cert.Spec.segCnt (fun n : Fin 100000 => (x2 (ix1 n)).toInt))) (fun k j => x7 (ix2 k j)) (fun j => x8 (ix1 j))) g := by
  unfold val_main_call2_v0
  have hv : ∀ j : Fin 10, val_main_v109 (F := Ideal) x0 x1 x2 x3 x4 x5 x6 x7 x8 (ix2 g j) = (Cert.Spec.logits (Cert.Spec.pooled (Cert.Spec.segSum (fun n : Fin 100000 => (x2 (ix1 n)).toInt) (fun (n : Fin 100000) (k : Fin 64) => val_main_v93 (F := Ideal) x0 x1 x3 x4 x5 x6 (ix2 n k))) (Cert.Spec.segCnt (fun n : Fin 100000 => (x2 (ix1 n)).toInt))) (fun k j => x7 (ix2 k j)) (fun j => x8 (ix1 j))) g j :=
    fun j => v109_apply x0 x1 x2 x3 x4 x5 x6 x7 x8 g j
  generalize val_main_v109 (F := Ideal) x0 x1 x2 x3 x4 x5 x6 x7 x8 = y at hv ⊢
  have hR : S64x10.Reduces [1] S64 := by decide
  refine (Host.reduce_eq_fold_single (α := Ideal .f32) (s := S64x10) (t := S64) (a := (1 : Fin 2)) (u := S_)
    FloatOps.maximumf y (val_main_call2_cst (F := Ideal)) reducesTo_S64x10_S64_d1 hR h_S_ (ix1 g)).trans ?_
  have hf : (y ∘ hR.lift (ix1 g)) = fun j : Fin 10 => (Cert.Spec.logits (Cert.Spec.pooled (Cert.Spec.segSum (fun n : Fin 100000 => (x2 (ix1 n)).toInt) (fun (n : Fin 100000) (k : Fin 64) => val_main_v93 (F := Ideal) x0 x1 x3 x4 x5 x6 (ix2 n k))) (Cert.Spec.segCnt (fun n : Fin 100000 => (x2 (ix1 n)).toInt))) (fun k j => x7 (ix2 k j)) (fun j => x8 (ix1 j))) g j :=
    funext fun j => (congrArg y (lift_ix2_col hR g j)).trans (hv j)
  exact congrArg (fun f => Finset.fold max Cert.Spec.ninfE f (Finset.univ : Finset (Fin 10))) hf

private theorem call2_v2_at (g : Fin 64) :
    val_main_call2_v2 (F := Ideal) x0 x1 x2 x3 x4 x5 x6 x7 x8 (ix1 g) = Cert.Spec.rowMax (Cert.Spec.logits (Cert.Spec.pooled (Cert.Spec.segSum (fun n : Fin 100000 => (x2 (ix1 n)).toInt) (fun (n : Fin 100000) (k : Fin 64) => val_main_v93 (F := Ideal) x0 x1 x3 x4 x5 x6 (ix2 n k))) (Cert.Spec.segCnt (fun n : Fin 100000 => (x2 (ix1 n)).toInt))) (fun k j => x7 (ix2 k j)) (fun j => x8 (ix1 j))) g := by
  rw [val_main_call2_v2_apply, val_main_call2_v1_apply, val_main_call2_cst_0_apply, call2_v0_at]
  have hb : ∀ y : EReal, max (Ideal.ofBits .f32 0xFF800000#32) y = y := fun y => by simp [Ideal.ofBits, Ideal.ieee]
  exact hb _

private theorem call2_v5_at (g : Fin 64) (j : Fin 10) :
    val_main_call2_v5 (F := Ideal) x0 x1 x2 x3 x4 x5 x6 x7 x8 (ix2 g j) = (Cert.Spec.logits (Cert.Spec.pooled (Cert.Spec.segSum (fun n : Fin 100000 => (x2 (ix1 n)).toInt) (fun (n : Fin 100000) (k : Fin 64) => val_main_v93 (F := Ideal) x0 x1 x3 x4 x5 x6 (ix2 n k))) (Cert.Spec.segCnt (fun n : Fin 100000 => (x2 (ix1 n)).toInt))) (fun k j => x7 (ix2 k j)) (fun j => x8 (ix1 j))) g j - Cert.Spec.rowMax (Cert.Spec.logits (Cert.Spec.pooled (Cert.Spec.segSum (fun n : Fin 100000 => (x2 (ix1 n)).toInt) (fun (n : Fin 100000) (k : Fin 64) => val_main_v93 (F := Ideal) x0 x1 x3 x4 x5 x6 (ix2 n k))) (Cert.Spec.segCnt (fun n : Fin 100000 => (x2 (ix1 n)).toInt))) (fun k j => x7 (ix2 k j)) (fun j => x8 (ix1 j))) g := by
  rw [val_main_call2_v5_apply, val_main_call2_v4_apply, val_main_call2_v3_apply]
  have hi : idx_main_call2_v3 (idx_main_call2_v4 (ix2 g j)) = ix1 g :=
    funext fun a => Fin.ext (by match a with | ⟨0, _⟩ => rfl)
  rw [hi, v109_apply, call2_v2_at]
  rfl

private theorem call2_v7_at (g : Fin 64) :
    val_main_call2_v7 (F := Ideal) x0 x1 x2 x3 x4 x5 x6 x7 x8 (ix1 g)
      = ∑ j' : Fin 10, Ideal.exp ((Cert.Spec.logits (Cert.Spec.pooled (Cert.Spec.segSum (fun n : Fin 100000 => (x2 (ix1 n)).toInt) (fun (n : Fin 100000) (k : Fin 64) => val_main_v93 (F := Ideal) x0 x1 x3 x4 x5 x6 (ix2 n k))) (Cert.Spec.segCnt (fun n : Fin 100000 => (x2 (ix1 n)).toInt))) (fun k j => x7 (ix2 k j)) (fun j => x8 (ix1 j))) g j' - Cert.Spec.rowMax (Cert.Spec.logits (Cert.Spec.pooled (Cert.Spec.segSum (fun n : Fin 100000 => (x2 (ix1 n)).toInt) (fun (n : Fin 100000) (k : Fin 64) => val_main_v93 (F := Ideal) x0 x1 x3 x4 x5 x6 (ix2 n k))) (Cert.Spec.segCnt (fun n : Fin 100000 => (x2 (ix1 n)).toInt))) (fun k j => x7 (ix2 k j)) (fun j => x8 (ix1 j))) g) := by
  rw [val_main_call2_v7_apply, val_main_call2_cst_1_apply]
  have hi : ∀ k : Fin 10, idx_main_call2_v7 (ix1 g) k = ix2 g k := fun k =>
    funext fun a => Fin.ext (by match a with | ⟨0, _⟩ => rfl | ⟨1, _⟩ => rfl)
  simp only [hi, val_main_call2_v6_apply, call2_v5_at, Ideal.ofBits_def, Ideal.ofBits_zero_f32, zero_add,
    Ideal.hostUnary_exp_def]

theorem v110_apply (g : Fin 64) (j : Fin 10) :
    val_main_v110 (F := Ideal) x0 x1 x2 x3 x4 x5 x6 x7 x8 (ix2 g j) = Cert.Spec.lsm (Cert.Spec.logits (Cert.Spec.pooled (Cert.Spec.segSum (fun n : Fin 100000 => (x2 (ix1 n)).toInt) (fun (n : Fin 100000) (k : Fin 64) => val_main_v93 (F := Ideal) x0 x1 x3 x4 x5 x6 (ix2 n k))) (Cert.Spec.segCnt (fun n : Fin 100000 => (x2 (ix1 n)).toInt))) (fun k j => x7 (ix2 k j)) (fun j => x8 (ix1 j))) g j := by
  rw [val_main_v110_apply, val_main_call2_v10_apply, val_main_call2_v9_apply, val_main_call2_v8_apply]
  have hi : idx_main_call2_v8 (idx_main_call2_v10 (ix2 g j)) = ix1 g :=
    funext fun a => Fin.ext (by match a with | ⟨0, _⟩ => rfl)
  rw [hi, call2_v5_at, call2_v7_at]
  simp only [Cert.Spec.lsm, Ideal.subf_def, Ideal.hostUnary_log_def]

theorem res_eq (m : (ℓ : Loc nD τ sig) → Buf (Elt Ideal) ℓ) (c : Dev nD) :
    Cert.ReferenceIdeal.Value.res_main_v110 m c
      = val_main_v110 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) :=
  val_main_v110_eq m c

end Cert.ReferenceIdeal.RefVal

end
-- ==== Proof.Val.XBridge.lean ====
import proofs.«420834_j16097537425459_2_alg».proof.Proof.Val.HostK
import proofs.«420834_j16097537425459_2_alg».proof.Proof.Val.RefLayers

set_option maxRecDepth 16384

noncomputable section

namespace Cert.XBridge

open Idealize.ShloMosaic Idealize.ShloMosaic.TcCoe Idealize.ShloMosaic.ValueIdx
open Cert.KernelIdeal.Val Cert.ReferenceIdeal.Read Cert.ReferenceIdeal.RefVal

theorem col_eq {α : Type} {a : ℕ} (ha : a ≠ 1) (v : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ v h = broadcastInDim ⟨2, ![a, 1]⟩ ![0] h' v := by
  funext i
  obtain ⟨n, u, rfl⟩ : ∃ (n : Fin a) (u : Fin 1), i = ix2 n u := ⟨i 0, i 1, eq_ix2 i⟩
  rw [shapeCast_a_a1_apply]
  exact (broadcastInDim_apply _ h' v (ix2 n u) (ix1 n) (fun b => match b with
    | ⟨0, _⟩ => by show n.val = if a = 1 then 0 else n.val; rw [if_neg ha])).symm

theorem dinv_eq (ei : IVec Cert.KernelIdeal.S2x1600000 32) :
    dinvOf (F := Ideal) ei = val_main_v11 (F := Ideal) ei := rfl

theorem src_eq (ei : IVec Cert.KernelIdeal.S2x1600000 32) :
    broadcastInDim Cert.KernelIdeal.S1600000x1 ![0] Cert.KernelIdeal.Facts₀.bcast_S1600000_S1600000x1_0 (normIdx (srcOf ei))
      = val_main_v32 (F := Ideal) ei := rfl

theorem dst_eq (ei : IVec Cert.KernelIdeal.S2x1600000 32) :
    broadcastInDim Cert.KernelIdeal.S1600000x1 ![0] Cert.KernelIdeal.Facts₀.bcast_S1600000_S1600000x1_0 (dstOf ei)
      = val_main_v38 (F := Ideal) ei := rfl

theorem norm_eq (ei : IVec Cert.KernelIdeal.S2x1600000 32) :
    mulf
      (Host.gather Cert.KernelIdeal.gather_S100000_S1600000x1_S1600000_n_0_n_n_0_1_1 (dinvOf (F := Ideal) ei)
        (broadcastInDim Cert.KernelIdeal.S1600000x1 ![0] Cert.KernelIdeal.Facts₀.bcast_S1600000_S1600000x1_0 (normIdx (srcOf ei))))
      (Host.gather Cert.KernelIdeal.gather_S100000_S1600000x1_S1600000_n_0_n_n_0_1_1 (dinvOf (F := Ideal) ei)
        (broadcastInDim Cert.KernelIdeal.S1600000x1 ![0] Cert.KernelIdeal.Facts₀.bcast_S1600000_S1600000x1_0 (normIdx (dstOf ei))))
      = val_main_v26 (F := Ideal) ei := rfl

theorem normcol_eq (ei : IVec Cert.KernelIdeal.S2x1600000 32) :
    normcolOf (F := Ideal) ei = val_main_v34 (F := Ideal) ei := by
  unfold normcolOf val_main_v34
  rw [norm_eq]
  exact col_eq (by decide) _ _ _

theorem normfull_eq (ei : IVec Cert.KernelIdeal.S2x1600000 32) :
    broadcastInDim Cert.KernelIdeal.S1600000x64 ![0, 1] Cert.KernelIdeal.Facts₀.bcast_S1600000x1_S1600000x64_0_1 (normcolOf (F := Ideal) ei)
      = val_main_v35 (F := Ideal) ei := by
  rw [normcol_eq]; rfl

theorem agg_eq (ei : IVec Cert.KernelIdeal.S2x1600000 32) (H : FVec Ideal Cert.KernelIdeal.S100000x64 .bf16) :
    aggOf (F := Ideal) (srcOf ei) (dstOf ei) (normcolOf (F := Ideal) ei) H = aggR ei H := by
  unfold aggOf aggR
  rw [normfull_eq, src_eq, dst_eq]
  rfl

theorem d2_eq (ei : IVec Cert.KernelIdeal.S2x1600000 32) (n : Fin 100000) :
    d2colOf (F := Ideal) ei (ix2 n 0) = d2R ei n := by
  unfold d2colOf d2R
  rw [shapeCast_a_a1_apply, dinv_eq]
  rfl

end Cert.XBridge

end
-- ==== Proof.Alg.lean ====
import proofs.«420834_j16097537425459_2_alg».proof.Defs
import proofs.«420834_j16097537425459_2_alg».proof.Proof.Gen.KernelIdeal
import proofs.«420834_j16097537425459_2_alg».proof.Proof.Gen.ReferenceIdeal
import proofs.«420834_j16097537425459_2_alg».proof.Proof.Gen.Pre_finite_inputs
import proofs.«420834_j16097537425459_2_alg».proof.Proof.KI.RunAll
import proofs.«420834_j16097537425459_2_alg».proof.Proof.Val.KVal
import proofs.«420834_j16097537425459_2_alg».proof.Proof.Val.RefLayers
import proofs.«420834_j16097537425459_2_alg».proof.Proof.Val.RefPool
import proofs.«420834_j16097537425459_2_alg».proof.Proof.Val.XBridge

noncomputable section

namespace Cert.Proof.Alg

open Idealize.ShloMosaic Idealize.ShloMosaic.TcCoe Idealize.ShloMosaic.ValueIdx Idealize.SL.Sem
open Cert.KernelIdeal (nD τ sig)
open Cert.KernelIdeal

theorem agg_fun_eq (ei : IVec Cert.KernelIdeal.S2x1600000 32) : Val.aggKc ei = Cert.ReferenceIdeal.RefVal.aggRc ei := by
  funext h n k
  exact congrFun (Cert.XBridge.agg_eq ei (fun i => h (i 0) (i 1))) (ix2 n k)

theorem d2_fun_eq (ei : IVec Cert.KernelIdeal.S2x1600000 32) : Val.d2K ei = Cert.ReferenceIdeal.RefVal.d2R ei := by
  funext n
  exact Cert.XBridge.d2_eq ei n

end Cert.Proof.Alg

namespace Cert.Proof.Alg

open Idealize.ShloMosaic Idealize.ShloMosaic.TcCoe Idealize.ShloMosaic.ValueIdx Idealize.SL.Sem
open Cert.KernelIdeal (nD τ sig)
open Cert.KernelIdeal

theorem result_eq (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ) (c : Dev nD)
    (hag : m' ((c.tc : Thread Cert.ReferenceIdeal.nD Cert.ReferenceIdeal.τ).loc Cert.ReferenceIdeal.main_arg0) = m ((c.tc : Thread nD τ).loc Cert.KernelIdeal.main_arg0)
      ∧ m' ((c.tc : Thread Cert.ReferenceIdeal.nD Cert.ReferenceIdeal.τ).loc Cert.ReferenceIdeal.main_arg1) = m ((c.tc : Thread nD τ).loc Cert.KernelIdeal.main_arg1)
      ∧ m' ((c.tc : Thread Cert.ReferenceIdeal.nD Cert.ReferenceIdeal.τ).loc Cert.ReferenceIdeal.main_arg2) = m ((c.tc : Thread nD τ).loc Cert.KernelIdeal.main_arg2)
      ∧ m' ((c.tc : Thread Cert.ReferenceIdeal.nD Cert.ReferenceIdeal.τ).loc Cert.ReferenceIdeal.main_arg3) = m ((c.tc : Thread nD τ).loc Cert.KernelIdeal.main_arg3)
      ∧ m' ((c.tc : Thread Cert.ReferenceIdeal.nD Cert.ReferenceIdeal.τ).loc Cert.ReferenceIdeal.main_arg4) = m ((c.tc : Thread nD τ).loc Cert.KernelIdeal.main_arg4)
      ∧ m' ((c.tc : Thread Cert.ReferenceIdeal.nD Cert.ReferenceIdeal.τ).loc Cert.ReferenceIdeal.main_arg5) = m ((c.tc : Thread nD τ).loc Cert.KernelIdeal.main_arg5)
      ∧ m' ((c.tc : Thread Cert.ReferenceIdeal.nD Cert.ReferenceIdeal.τ).loc Cert.ReferenceIdeal.main_arg6) = m ((c.tc : Thread nD τ).loc Cert.KernelIdeal.main_arg6)
      ∧ m' ((c.tc : Thread Cert.ReferenceIdeal.nD Cert.ReferenceIdeal.τ).loc Cert.ReferenceIdeal.main_arg7) = m ((c.tc : Thread nD τ).loc Cert.KernelIdeal.main_arg7)
      ∧ m' ((c.tc : Thread Cert.ReferenceIdeal.nD Cert.ReferenceIdeal.τ).loc Cert.ReferenceIdeal.main_arg8) = m ((c.tc : Thread nD τ).loc Cert.KernelIdeal.main_arg8)) :
    Cert.ReferenceIdeal.Value.res_main_v110 (F := Ideal) m' c = Fr.W6 (F := Ideal) m ρ c (Proc.devRef .tc Cert.KernelIdeal.main_v61) := by
  obtain ⟨h0, h1, h2, h3, h4, h5, h6, h7, h8⟩ := hag
  rw [Cert.ReferenceIdeal.RefVal.res_eq, h0, h1, h2, h3, h4, h5, h6, h7, h8]
  funext i
  obtain ⟨g, j, rfl⟩ : ∃ (g : Fin 64) (j : Fin 10), i = ix2 g j := ⟨i 0, i 1, eq_ix2 i⟩
  rw [Cert.ReferenceIdeal.RefVal.v110_apply]
  refine Eq.trans ?_ (Val.kernel_out m ρ c g j).symm
  simp only [Cert.ReferenceIdeal.RefVal.v93_apply, Cert.Spec.net, agg_fun_eq, d2_fun_eq]

theorem algebraic : Cert.algebraic_KernelIdeal_ReferenceIdeal := by
  intro m ρ m' ρ' _ hagree
  refine ⟨fun c => Fr.W6 (F := Ideal) m ρ c (Proc.devRef .tc Cert.KernelIdeal.main_v61), Fr.run_args (F := Ideal) m ρ, ?_⟩
  refine (θ_run (Cert.ReferenceIdeal.defs (F := Ideal)) _ _).mono (fun _ h c => ⟨(h c).1.trans (result_eq m ρ m' c (hagree c)), (h c).2⟩)
    (Cert.ReferenceIdeal.Value.run (F := Ideal) m' ρ')

end Cert.Proof.Alg

end
-- ==== Proof.lean ====
import proofs.«420834_j16097537425459_2_alg».proof.Defs
import proofs.«420834_j16097537425459_2_alg».proof.Proof.Gen.Kernel
import proofs.«420834_j16097537425459_2_alg».proof.Proof.Gen.KernelIdeal
import proofs.«420834_j16097537425459_2_alg».proof.Proof.Gen.ReferenceIdeal
import proofs.«420834_j16097537425459_2_alg».proof.Proof.Gen.Pre_finite_inputs
import proofs.«420834_j16097537425459_2_alg».proof.Proof.Same
import proofs.«420834_j16097537425459_2_alg».proof.Proof.KI.RunAll
import proofs.«420834_j16097537425459_2_alg».proof.Proof.Alg
import Idealize.ShloMosaic.Adequacy
import Idealize.ShloMosaic.Init

noncomputable section

namespace Cert.Proof

open Idealize.ShloMosaic Idealize.SL.Sem

set_option maxHeartbeats 2000000 in
theorem frame_k : Cert.frame_Kernel := fun m ρ _ => by
  have h := (θ_run _ _ _).mono (fun _ h c => (h c).2) (Cert.KernelIdeal.Fr.run_args (F := Bits) m ρ)
  rw [← Cert.Same.defs_eq] at h
  exact h
theorem frame_ki : Cert.frame_KernelIdeal := fun m ρ _ =>
  (θ_run Cert.KernelIdeal.defs _ _).mono (fun _ h c => (h c).2) (Cert.KernelIdeal.Fr.run_args (F := Ideal) m ρ)
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Alg.algebraic⟩

end Cert.Proof

end
